-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S128 : Shape := ⟨1, ![128]⟩
abbrev S256x256 : Shape := ⟨2, ![256, 256]⟩
abbrev S256 : Shape := ⟨1, ![256]⟩
abbrev S512x256 : Shape := ⟨2, ![512, 256]⟩
abbrev S1024x256 : Shape := ⟨2, ![1024, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  bcast_S_S16x1024x32x32 : S_.BroadcastsInDim S16x1024x32x32 (![] : Fin 0 → Fin S16x1024x32x32.rank)
  reducesTo_S16x1024x32x32_S_d0_1_2_3 : S16x1024x32x32.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S1024x256 : S_.BroadcastsInDim S1024x256 (![] : Fin 0 → Fin S1024x256.rank)
  reducesTo_S1024x256_S_d0_1 : S1024x256.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg4 : IVec S128 32) (main_arg5 : IVec S128 32) (main_v81 : IVec S_ 1) (main_v83 : IVec S128 1) (main_c_33 : IVec S_ 1) : IVec S_ 1 :=
  let main_v84 : IVec S_ 1 := (fun x v => Host.reduce IntOp.andi x v reducesTo_S128_S_d0 h_S_) main_v83 main_c_33
  let main_v85 : IVec S_ 1 := andi main_v81 main_v84
  let main_c_34 : IVec S_ 32 := constantI S_ 32 4096#32
  let main_v86 : IVec S128 32 := broadcastInDim S128 ![] bcast_S_S128 main_c_34
  let main_v87 : IVec S128 1 := cmpi .slt main_arg4 main_v86
  let main_c_35 : IVec S_ 1 := constantI S_ 1 1#1
  let main_v88 : IVec S_ 1 := (fun x v => Host.reduce IntOp.andi x v reducesTo_S128_S_d0 h_S_) main_v87 main_c_35
  let main_v89 : IVec S_ 1 := andi main_v85 main_v88
  let main_c_36 : IVec S_ 32 := constantI S_ 32 0#32
  let main_v90 : IVec S128 32 := broadcastInDim S128 ![] bcast_S_S128 main_c_36
  let main_v91 : IVec S128 1 := cmpi .sge main_arg5 main_v90
  let main_c_37 : IVec S_ 1 := constantI S_ 1 1#1
  let main_v92 : IVec S_ 1 := (fun x v => Host.reduce IntOp.andi x v reducesTo_S128_S_d0 h_S_) main_v91 main_c_37
  let main_v93 : IVec S_ 1 := andi main_v89 main_v92
  let main_c_38 : IVec S_ 32 := constantI S_ 32 1024#32
  let main_v94 : IVec S128 32 := broadcastInDim S128 ![] bcast_S_S128 main_c_38
  let main_v95 : IVec S128 1 := cmpi .slt main_arg5 main_v94
  let main_c_39 : IVec S_ 1 := constantI S_ 1 1#1
  let main_v96 : IVec S_ 1 := (fun x v => Host.reduce IntOp.andi x v reducesTo_S128_S_d0 h_S_) main_v95 main_c_39
  let main_v97 : IVec S_ 1 := andi main_v93 main_v96
  main_v97

def fn_part4 {F : FTy → Type} [FloatOps F] (main_arg3 : IVec S128 32) (main_arg4 : IVec S128 32) (main_arg5 : IVec S128 32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S128 32 := broadcastInDim S128 ![] bcast_S_S128 main_c_28
  let main_v75 : IVec S128 1 := cmpi .sge main_arg3 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_c_30 : IVec S_ 32 := constantI S_ 32 16384#32
  let main_v78 : IVec S128 32 := broadcastInDim S128 ![] bcast_S_S128 main_c_30
  let main_v79 : IVec S128 1 := cmpi .slt main_arg3 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  let main_c_32 : IVec S_ 32 := constantI S_ 32 0#32
  let main_v82 : IVec S128 32 := broadcastInDim S128 ![] bcast_S_S128 main_c_32
  let main_v83 : IVec S128 1 := cmpi .sge main_arg4 main_v82
  let main_c_33 : IVec S_ 1 := constantI S_ 1 1#1
  fn_part5 (F := F) main_arg4 main_arg5 main_v81 main_v83 main_c_33

def fn_part3 {F : FTy → Type} [FloatOps F] (main_arg3 : IVec S128 32) (main_arg4 : IVec S128 32) (main_arg5 : IVec S128 32) (main_arg14 : FVec F S1024x256 .f32) (main_arg15 : FVec F S256 .f32) (main_arg16 : FVec F S256x256 .f32) (main_arg17 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1024x256 .f32 := Host.absf main_arg14
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg16
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg3 main_arg4 main_arg5 main_arg17 main_v63 main_v67

def fn_part2 {F : FTy → Type} [FloatOps F] (main_arg3 : IVec S128 32) (main_arg4 : IVec S128 32) (main_arg5 : IVec S128 32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg4 main_arg5 main_arg14 main_arg15 main_arg16 main_arg17 main_v48 main_v49 main_v50

def fn_part1 {F : FTy → Type} [FloatOps F] (main_arg3 : IVec S128 32) (main_arg4 : IVec S128 32) (main_arg5 : IVec S128 32) (main_arg7 : FVec F S256 .f32) (main_arg8 : FVec F S256x256 .f32) (main_arg9 : FVec F S256 .f32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg4 main_arg5 main_arg10 main_arg11 main_arg12 main_arg13 main_arg14 main_arg15 main_arg16 main_arg17 main_v33

def fn {F : FTy → Type} [FloatOps F] (main_arg0 : FVec F S16x256x128x128 .f32) (main_arg1 : FVec F S16x512x64x64 .f32) (main_arg2 : FVec F S16x1024x32x32 .f32) (main_arg3 : IVec S128 32) (main_arg4 : IVec S128 32) (main_arg5 : IVec S128 32) (main_arg6 : FVec F S256x256 .f32) (main_arg7 : FVec F S256 .f32) (main_arg8 : FVec F S256x256 .f32) (main_arg9 : FVec F S256 .f32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  let main_v9 : FVec F S16x1024x32x32 .f32 := Host.absf main_arg2
  let main_cst_2 : FVec F S_ .f32 := constant S_ .f32 0x7F800000#32
  let main_v10 : FVec F S16x1024x32x32 .f32 := broadcastInDim S16x1024x32x32 ![] bcast_S_S16x1024x32x32 main_cst_2
  let main_v11 : IVec S16x1024x32x32 1 := cmpf .olt main_v9 main_v10
  let main_c_3 : IVec S_ 1 := constantI S_ 1 1#1
  let main_v12 : IVec S_ 1 := (fun x v => Host.reduce IntOp.andi x v reducesTo_S16x1024x32x32_S_d0_1_2_3 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg4 main_arg5 main_arg7 main_arg8 main_arg9 main_arg10 main_arg11 main_arg12 main_arg13 main_arg14 main_arg15 main_arg16 main_arg17 main_v13 main_v16
-- ==== Kernel.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S128 : Shape := ⟨1, ![128]⟩
abbrev S256x256 : Shape := ⟨2, ![256, 256]⟩
abbrev S256 : Shape := ⟨1, ![256]⟩
abbrev S512x256 : Shape := ⟨2, ![512, 256]⟩
abbrev S1024x256 : Shape := ⟨2, ![1024, 256]⟩
abbrev S16x256x16384 : Shape := ⟨3, ![16, 256, 16384]⟩
abbrev S128x1 : Shape := ⟨2, ![128, 1]⟩
abbrev S16384 : Shape := ⟨1, ![16384]⟩
abbrev S1x16384 : Shape := ⟨2, ![1, 16384]⟩
abbrev S128x16384 : Shape := ⟨2, ![128, 16384]⟩
abbrev S1x256 : Shape := ⟨2, ![1, 256]⟩
abbrev S16x128x256 : Shape := ⟨3, ![16, 128, 256]⟩
abbrev S1x256x8192 : Shape := ⟨3, ![1, 256, 8192]⟩
abbrev S1x128x256 : Shape := ⟨3, ![1, 128, 256]⟩
abbrev S128x8192 : Shape := ⟨2, ![128, 8192]⟩
abbrev S256x8192 : Shape := ⟨2, ![256, 8192]⟩
abbrev S128x256 : Shape := ⟨2, ![128, 256]⟩
abbrev S16x512x4096 : Shape := ⟨3, ![16, 512, 4096]⟩
abbrev S4096 : Shape := ⟨1, ![4096]⟩
abbrev S1x4096 : Shape := ⟨2, ![1, 4096]⟩
abbrev S128x4096 : Shape := ⟨2, ![128, 4096]⟩
abbrev S1x512x4096 : Shape := ⟨3, ![1, 512, 4096]⟩
abbrev S1x128x512 : Shape := ⟨3, ![1, 128, 512]⟩
abbrev S512x4096 : Shape := ⟨2, ![512, 4096]⟩
abbrev S128x512 : Shape := ⟨2, ![128, 512]⟩
abbrev S16x1024x1024 : Shape := ⟨3, ![16, 1024, 1024]⟩
abbrev S1024 : Shape := ⟨1, ![1024]⟩
abbrev S1x1024 : Shape := ⟨2, ![1, 1024]⟩
abbrev S128x1024 : Shape := ⟨2, ![128, 1024]⟩
abbrev S2x1024x1024 : Shape := ⟨3, ![2, 1024, 1024]⟩
abbrev S2x128x256 : Shape := ⟨3, ![2, 128, 256]⟩
abbrev S2x128x1024 : Shape := ⟨3, ![2, 128, 1024]⟩
abbrev S1x1024x1024 : Shape := ⟨3, ![1, 1024, 1024]⟩
abbrev S1024x1024 : Shape := ⟨2, ![1024, 1024]⟩
abbrev S1x128x1024 : Shape := ⟨3, ![1, 128, 1024]⟩
abbrev S1x16x128x256 : Shape := ⟨4, ![1, 16, 128, 256]⟩
abbrev S3x16x128x256 : Shape := ⟨4, ![3, 16, 128, 256]⟩

abbrev nBuf : Space → Nat
  | .hbm => 55
  | .vmem => 30
  | .smem => 0
  | _ => 0

abbrev bufTy : (tb : Table) → Fin (tcTables nBuf tb) → BufTy
  | .hbm, ⟨0, _⟩ => ⟨S16x256x128x128, .f32⟩
  | .hbm, ⟨1, _⟩ => ⟨S16x512x64x64, .f32⟩
  | .hbm, ⟨2, _⟩ => ⟨S16x1024x32x32, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1024x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16x256x16384, .f32⟩
  | .hbm, ⟨19, _⟩ => ⟨S128x1, .i32⟩
  | .hbm, ⟨20, _⟩ => ⟨S16384, .i32⟩
  | .hbm, ⟨21, _⟩ => ⟨S1x16384, .i32⟩
  | .hbm, ⟨22, _⟩ => ⟨S128x16384, .i32⟩
  | .hbm, ⟨23, _⟩ => ⟨S128x16384, .i32⟩
  | .hbm, ⟨24, _⟩ => ⟨S128x16384, .i1⟩
  | .hbm, ⟨25, _⟩ => ⟨S128x16384, .bf16⟩
  | .hbm, ⟨26, _⟩ => ⟨S1x256, .f32⟩
  | .hbm, ⟨27, _⟩ => ⟨S1x256, .f32⟩
  | .hbm, ⟨28, _⟩ => ⟨S16x128x256, .f32⟩
  | .hbm, ⟨29, _⟩ => ⟨S16x512x4096, .f32⟩
  | .hbm, ⟨30, _⟩ => ⟨S128x1, .i32⟩
  | .hbm, ⟨31, _⟩ => ⟨S4096, .i32⟩
  | .hbm, ⟨32, _⟩ => ⟨S1x4096, .i32⟩
  | .hbm, ⟨33, _⟩ => ⟨S128x4096, .i32⟩
  | .hbm, ⟨34, _⟩ => ⟨S128x4096, .i32⟩
  | .hbm, ⟨35, _⟩ => ⟨S128x4096, .i1⟩
  | .hbm, ⟨36, _⟩ => ⟨S128x4096, .bf16⟩
  | .hbm, ⟨37, _⟩ => ⟨S1x256, .f32⟩
  | .hbm, ⟨38, _⟩ => ⟨S1x256, .f32⟩
  | .hbm, ⟨39, _⟩ => ⟨S16x128x256, .f32⟩
  | .hbm, ⟨40, _⟩ => ⟨S16x1024x1024, .f32⟩
  | .hbm, ⟨41, _⟩ => ⟨S128x1, .i32⟩
  | .hbm, ⟨42, _⟩ => ⟨S1024, .i32⟩
  | .hbm, ⟨43, _⟩ => ⟨S1x1024, .i32⟩
  | .hbm, ⟨44, _⟩ => ⟨S128x1024, .i32⟩
  | .hbm, ⟨45, _⟩ => ⟨S128x1024, .i32⟩
  | .hbm, ⟨46, _⟩ => ⟨S128x1024, .i1⟩
  | .hbm, ⟨47, _⟩ => ⟨S128x1024, .bf16⟩
  | .hbm, ⟨48, _⟩ => ⟨S1x256, .f32⟩
  | .hbm, ⟨49, _⟩ => ⟨S1x256, .f32⟩
  | .hbm, ⟨50, _⟩ => ⟨S16x128x256, .f32⟩
  | .hbm, ⟨51, _⟩ => ⟨S1x16x128x256, .f32⟩
  | .hbm, ⟨52, _⟩ => ⟨S1x16x128x256, .f32⟩
  | .hbm, ⟨53, _⟩ => ⟨S1x16x128x256, .f32⟩
  | .hbm, ⟨54, _⟩ => ⟨S3x16x128x256, .f32⟩
  | .local _ .vmem, ⟨0, _⟩ => ⟨S1x256x8192, .f32⟩
  | .local _ .vmem, ⟨1, _⟩ => ⟨S1x256x8192, .f32⟩
  | .local _ .vmem, ⟨2, _⟩ => ⟨S128x16384, .bf16⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x512x4096, .f32⟩
  | .local _ .vmem, ⟨11, _⟩ => ⟨S1x512x4096, .f32⟩
  | .local _ .vmem, ⟨12, _⟩ => ⟨S128x4096, .bf16⟩
  | .local _ .vmem, ⟨13, _⟩ => ⟨S512x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S1x128x256, .f32⟩
  | .local _ .vmem, ⟨18, _⟩ => ⟨S1x128x256, .f32⟩
  | .local _ .vmem, ⟨19, _⟩ => ⟨S1x128x512, .f32⟩
  | .local _ .vmem, ⟨20, _⟩ => ⟨S2x1024x1024, .f32⟩
  | .local _ .vmem, ⟨21, _⟩ => ⟨S2x1024x1024, .f32⟩
  | .local _ .vmem, ⟨22, _⟩ => ⟨S128x1024, .bf16⟩
  | .local _ .vmem, ⟨23, _⟩ => ⟨S1024x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S2x128x256, .f32⟩
  | .local _ .vmem, ⟨28, _⟩ => ⟨S2x128x256, .f32⟩
  | .local _ .vmem, ⟨29, _⟩ => ⟨S2x128x1024, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c8192_i32 : BitVec 32 := 8192#32
  let v3 : BitVec 32 := Scalar.muli arg1 c8192_i32
  v3
def k0_off1 (i : grid0.Coords) : Fin 2 → Nat :=
  let c0 : Index := 0#32
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  ![0, v5.toNat]
def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 1], ![false, false]⟩

def k1_mult1 (i : grid1.Coords) : BitVec 32 :=
  let arg1 : BitVec 32 := BitVec.ofNat 32 (i 1).val
  let c4096_i32 : BitVec 32 := 4096#32
  let v3 : BitVec 32 := Scalar.muli arg1 c4096_i32
  v3
def k1_off1 (i : grid1.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, v5.toNat]
def k1_cond2 (i : grid1.Coords) : BitVec 1 :=
  let arg1 : BitVec 32 := BitVec.ofNat 32 (i 1).val
  let c0_i32_10 : BitVec 32 := 0#32
  let v18 : BitVec 1 := Scalar.cmpi .eq arg1 c0_i32_10
  let v19 : BitVec 32 := Scalar.extui v18
  let c0_i32_11 : BitVec 32 := 0#32
  let v20 : BitVec 1 := Scalar.cmpi .ne v19 c0_i32_11
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 1], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k2_cond2 (i : grid2.Coords) : BitVec 1 :=
  let arg1 : BitVec 32 := BitVec.ofNat 32 (i 1).val
  let c0_i32_19 : BitVec 32 := 0#32
  let v28 : BitVec 1 := Scalar.cmpi .eq arg1 c0_i32_19
  let v29 : BitVec 32 := Scalar.extui v28
  let c0_i32_20 : BitVec 32 := 0#32
  let v30 : BitVec 1 := Scalar.cmpi .ne v29 c0_i32_20
  v30

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2x128x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S16x256x128x128_S16x256x16384 : S16x256x128x128.ShapeCasts S16x256x16384
  shapeCasts_S128_S128x1 : S128.ShapeCasts S128x1
  shapeCasts_S16384_S1x16384 : S16384.ShapeCasts S1x16384
  bcast_S128x1_S128x16384_0_1 : S128x1.BroadcastsInDim S128x16384 (![0, 1] : Fin 2 → Fin S128x16384.rank)
  bcast_S1x16384_S128x16384_0_1 : S1x16384.BroadcastsInDim S128x16384 (![0, 1] : Fin 2 → Fin S128x16384.rank)
  shapeCasts_S256_S1x256 : S256.ShapeCasts S1x256
  inb_S1x128x256_S1x128x256_0_0_0 : ∀ a, (![0, 0, 0] : Fin 3 → Nat) a + S1x128x256.size a ≤ S1x128x256.size a
  h_S1x128x256 : 0 < S1x128x256.numel
  shapeCasts_S1x128x256_S1x128x256 : S1x128x256.ShapeCasts S1x128x256
  h_S128x8192 : 0 < S128x8192.numel
  shapeCasts_S128x8192_S128x8192 : S128x8192.ShapeCasts S128x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  bitsLt_bf16_f32 : FTy.bits .bf16 < FTy.bits .f32
  shapeCasts_S1x128x256_S128x256 : S1x128x256.ShapeCasts S128x256
  shapeCasts_S128x256_S1x128x256 : S128x256.ShapeCasts S1x128x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  reduces_S128x256_S128 : S128x256.Reduces [1] S128
  broadcasts_S128x1_S128x256 : S128x1.Broadcasts S128x256
  shapeCasts_S16x512x64x64_S16x512x4096 : S16x512x64x64.ShapeCasts S16x512x4096
  shapeCasts_S4096_S1x4096 : S4096.ShapeCasts S1x4096
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  inb_S1x128x512_S1x128x512_0_0_0 : ∀ a, (![0, 0, 0] : Fin 3 → Nat) a + S1x128x512.size a ≤ S1x128x512.size a
  h_S1x128x512 : 0 < S1x128x512.numel
  shapeCasts_S1x128x512_S1x128x512 : S1x128x512.ShapeCasts S1x128x512
  h_S128x4096 : 0 < S128x4096.numel
  shapeCasts_S128x4096_S128x4096 : S128x4096.ShapeCasts S128x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S1x128x512_S128x512 : S1x128x512.ShapeCasts S128x512
  shapeCasts_S128x512_S1x128x512 : S128x512.ShapeCasts S1x128x512
  inb_S512x256_S512x256_0_0 : ∀ a, (![0, 0] : Fin 2 → Nat) a + S512x256.size a ≤ S512x256.size a
  h_S512x256 : 0 < S512x256.numel
  shapeCasts_S16x1024x32x32_S16x1024x1024 : S16x1024x32x32.ShapeCasts S16x1024x1024
  shapeCasts_S1024_S1x1024 : S1024.ShapeCasts S1x1024
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  inb_S2x128x1024_S2x128x1024_0_0_0 : ∀ a, (![0, 0, 0] : Fin 3 → Nat) a + S2x128x1024.size a ≤ S2x128x1024.size a
  h_S2x128x1024 : 0 < S2x128x1024.numel
  shapeCasts_S2x128x1024_S2x128x1024 : S2x128x1024.ShapeCasts S2x128x1024
  h_S128x1024 : 0 < S128x1024.numel
  shapeCasts_S128x1024_S128x1024 : S128x1024.ShapeCasts S128x1024
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x128x1024_S1x128x1024_0_0_0 : ∀ a, (![0, 0, 0] : Fin 3 → Nat) a + S1x128x1024.size a ≤ S2x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S2x1024x1024_S1x1024x1024_1_0_0 : ∀ a, (![1, 0, 0] : Fin 3 → Nat) a + S1x1024x1024.size a ≤ S2x1024x1024.size a
  inb_S2x128x1024_S1x128x1024_1_0_0 : ∀ a, (![1, 0, 0] : Fin 3 → Nat) a + S1x128x1024.size a ≤ S2x128x1024.size a
  inb_S1024x256_S1024x256_0_0 : ∀ a, (![0, 0] : Fin 2 → Nat) a + S1024x256.size a ≤ S1024x256.size a
  h_S1024x256 : 0 < S1024x256.numel
  inb_S2x128x256_S1x128x256_0_0_0 : ∀ a, (![0, 0, 0] : Fin 3 → Nat) a + S1x128x256.size a ≤ S2x128x256.size a
  inb_S2x128x256_S1x128x256_1_0_0 : ∀ a, (![1, 0, 0] : Fin 3 → Nat) a + S1x128x256.size a ≤ S2x128x256.size a
  bcast_S16x128x256_S1x16x128x256_1_2_3 : S16x128x256.BroadcastsInDim S1x16x128x256 (![1, 2, 3] : Fin 3 → Fin S1x16x128x256.rank)
  concatenates_S1x16x128x256_S1x16x128x256_S1x16x128x256_S3x16x128x256_d0 : Shape.Concatenates [S1x16x128x256, S1x16x128x256, S1x16x128x256] S3x16x128x256 0
  dot_S128x8192_S256x8192_S128x256_1_1_0_0_n_n_wf : DotDims.WF S128x8192 S256x8192 S128x256 [1] [1] [0] [0] [] []
  dot_S128x256_S256x256_S128x256_1_0_0_1_n_n_wf : DotDims.WF S128x256 S256x256 S128x256 [1] [0] [0] [1] [] []
  dot_S128x4096_S512x4096_S128x512_1_1_0_0_n_n_wf : DotDims.WF S128x4096 S512x4096 S128x512 [1] [1] [0] [0] [] []
  dot_S128x512_S512x256_S128x256_1_0_0_1_n_n_wf : DotDims.WF S128x512 S512x256 S128x256 [1] [0] [0] [1] [] []
  dot_S128x1024_S1024x1024_S128x1024_1_1_0_0_n_n_wf : DotDims.WF S128x1024 S1024x1024 S128x1024 [1] [1] [0] [0] [] []
  dot_S128x1024_S1024x256_S128x256_1_0_0_1_n_n_wf : DotDims.WF S128x1024 S1024x256 S128x256 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x8192.size a ≤ S128x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S16x256x16384.size a
  hwx0_0 : ∀ i : grid0.Coords, EltTy.bits .f32 = 32 ∨ (Rect.block (s := S16x256x16384) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S128x16384.size a
  hwx0_1 : ∀ i : grid0.Coords, EltTy.bits .bf16 = 32 ∨ (Rect.block (s := S128x16384) S128x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x256.size a ≤ S16x128x256.size a
  hwx0_6 : ∀ i : grid0.Coords, EltTy.bits .f32 = 32 ∨ (Rect.block (s := S16x128x256) S1x128x256.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x4096.size a ≤ S128x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S16x512x4096.size a
  hwx1_0 : ∀ i : grid1.Coords, EltTy.bits .f32 = 32 ∨ (Rect.block (s := S16x512x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S128x4096.size a
  hwx1_1 : ∀ i : grid1.Coords, EltTy.bits .bf16 = 32 ∨ (Rect.block (s := S128x4096) S128x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x256.size a ≤ S16x128x256.size a
  hwx1_6 : ∀ i : grid1.Coords, EltTy.bits .f32 = 32 ∨ (Rect.block (s := S16x128x256) S1x128x256.size (cc1_transform_6 i) (hinb1_6 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S128x1024.size a ≤ S128x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x1024x1024.size a ≤ S16x1024x1024.size a
  hwx2_0 : ∀ i : grid2.Coords, EltTy.bits .f32 = 32 ∨ (Rect.block (s := S16x1024x1024) S2x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x1024.size a
  hwx2_1 : ∀ i : grid2.Coords, EltTy.bits .bf16 = 32 ∨ (Rect.block (s := S128x1024) S128x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2x128x256.size a ≤ S16x128x256.size a
  hwx2_6 : ∀ i : grid2.Coords, EltTy.bits .f32 = 32 ∨ (Rect.block (s := S16x128x256) S2x128x256.size (cc2_transform_6 i) (hinb2_6 i)).WholeWords (EltTy.packing .f32)

variable [Facts₀]

def dot_S128x8192_S256x8192_S128x256_1_1_0_0_n_n : DotDims S128x8192 S256x8192 S128x256 where
  lhsContracting := [1]
  rhsContracting := [1]
  lhsNonContracting := [0]
  rhsNonContracting := [0]
  lhsBatch := []
  rhsBatch := []
  wf := dot_S128x8192_S256x8192_S128x256_1_1_0_0_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v11) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v22) S2x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S128x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S1024x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S2x128x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S128 : Shape := ⟨1, ![128]⟩
abbrev S256x256 : Shape := ⟨2, ![256, 256]⟩
abbrev S256 : Shape := ⟨1, ![256]⟩
abbrev S512x256 : Shape := ⟨2, ![512, 256]⟩
abbrev S1024x256 : Shape := ⟨2, ![1024, 256]⟩
abbrev S16x128x128x256 : Shape := ⟨4, ![16, 128, 128, 256]⟩
abbrev S16x16384x256 : Shape := ⟨3, ![16, 16384, 256]⟩
abbrev S_ : Shape := ⟨0, ![]⟩
abbrev S128x1 : Shape := ⟨2, ![128, 1]⟩
abbrev S16x128x256 : Shape := ⟨3, ![16, 128, 256]⟩
abbrev S1x1x256 : Shape := ⟨3, ![1, 1, 256]⟩
abbrev S16x128 : Shape := ⟨2, ![16, 128]⟩
abbrev S16x128x1 : Shape := ⟨3, ![16, 128, 1]⟩
abbrev S16x64x64x512 : Shape := ⟨4, ![16, 64, 64, 512]⟩
abbrev S16x4096x512 : Shape := ⟨3, ![16, 4096, 512]⟩
abbrev S16x128x512 : Shape := ⟨3, ![16, 128, 512]⟩
abbrev S16x32x32x1024 : Shape := ⟨4, ![16, 32, 32, 1024]⟩
abbrev S16x1024x1024 : Shape := ⟨3, ![16, 1024, 1024]⟩
abbrev S16x128x1024 : Shape := ⟨3, ![16, 128, 1024]⟩
abbrev S1x16x128x256 : Shape := ⟨4, ![1, 16, 128, 256]⟩
abbrev S3x16x128x256 : Shape := ⟨4, ![3, 16, 128, 256]⟩

abbrev nBuf : Space → Nat
  | .hbm => 118
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x512x64x64, .f32⟩
  | .hbm, ⟨2, _⟩ => ⟨S16x1024x32x32, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1024x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16x128x128x256, .f32⟩
  | .hbm, ⟨19, _⟩ => ⟨S16x16384x256, .f32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S16x128x256, .f32⟩
  | .hbm, ⟨29, _⟩ => ⟨S16x128x256, .f32⟩
  | .hbm, ⟨30, _⟩ => ⟨S1x1x256, .f32⟩
  | .hbm, ⟨31, _⟩ => ⟨S16x128x256, .f32⟩
  | .hbm, ⟨32, _⟩ => ⟨S16x128x256, .f32⟩
  | .hbm, ⟨33, _⟩ => ⟨S_, .f32⟩
  | .hbm, ⟨34, _⟩ => ⟨S16x128x256, .f32⟩
  | .hbm, ⟨35, _⟩ => ⟨S16x128x256, .f32⟩
  | .hbm, ⟨36, _⟩ => ⟨S16x128x256, .f32⟩
  | .hbm, ⟨37, _⟩ => ⟨S1x1x256, .f32⟩
  | .hbm, ⟨38, _⟩ => ⟨S16x128x256, .f32⟩
  | .hbm, ⟨39, _⟩ => ⟨S16x128x256, .f32⟩
  | .hbm, ⟨40, _⟩ => ⟨S16x128x256, .f32⟩
  | .hbm, ⟨41, _⟩ => ⟨S_, .f32⟩
  | .hbm, ⟨42, _⟩ => ⟨S16x128, .f32⟩
  | .hbm, ⟨43, _⟩ => ⟨S16x128x1, .f32⟩
  | .hbm, ⟨44, _⟩ => ⟨S16x128x1, .f32⟩
  | .hbm, ⟨45, _⟩ => ⟨S_, .f32⟩
  | .hbm, ⟨46, _⟩ => ⟨S16x128x1, .f32⟩
  | .hbm, ⟨47, _⟩ => ⟨S16x128x1, .f32⟩
  | .hbm, ⟨48, _⟩ => ⟨S16x128x256, .f32⟩
  | .hbm, ⟨49, _⟩ => ⟨S16x128x256, .f32⟩
  | .hbm, ⟨50, _⟩ => ⟨S16x64x64x512, .f32⟩
  | .hbm, ⟨51, _⟩ => ⟨S16x4096x512, .f32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S16x128x512, .f32⟩
  | .hbm, ⟨61, _⟩ => ⟨S16x128x256, .f32⟩
  | .hbm, ⟨62, _⟩ => ⟨S1x1x256, .f32⟩
  | .hbm, ⟨63, _⟩ => ⟨S16x128x256, .f32⟩
  | .hbm, ⟨64, _⟩ => ⟨S16x128x256, .f32⟩
  | .hbm, ⟨65, _⟩ => ⟨S_, .f32⟩
  | .hbm, ⟨66, _⟩ => ⟨S16x128x256, .f32⟩
  | .hbm, ⟨67, _⟩ => ⟨S16x128x256, .f32⟩
  | .hbm, ⟨68, _⟩ => ⟨S16x128x256, .f32⟩
  | .hbm, ⟨69, _⟩ => ⟨S1x1x256, .f32⟩
  | .hbm, ⟨70, _⟩ => ⟨S16x128x256, .f32⟩
  | .hbm, ⟨71, _⟩ => ⟨S16x128x256, .f32⟩
  | .hbm, ⟨72, _⟩ => ⟨S16x128x256, .f32⟩
  | .hbm, ⟨73, _⟩ => ⟨S_, .f32⟩
  | .hbm, ⟨74, _⟩ => ⟨S16x128, .f32⟩
  | .hbm, ⟨75, _⟩ => ⟨S16x128x1, .f32⟩
  | .hbm, ⟨76, _⟩ => ⟨S16x128x1, .f32⟩
  | .hbm, ⟨77, _⟩ => ⟨S_, .f32⟩
  | .hbm, ⟨78, _⟩ => ⟨S16x128x1, .f32⟩
  | .hbm, ⟨79, _⟩ => ⟨S16x128x1, .f32⟩
  | .hbm, ⟨80, _⟩ => ⟨S16x128x256, .f32⟩
  | .hbm, ⟨81, _⟩ => ⟨S16x128x256, .f32⟩
  | .hbm, ⟨82, _⟩ => ⟨S16x32x32x1024, .f32⟩
  | .hbm, ⟨83, _⟩ => ⟨S16x1024x1024, .f32⟩
  | .hbm, ⟨84, _⟩ => ⟨S_, .i32⟩
  | .hbm, ⟨85, _⟩ => ⟨S128, .i32⟩
  | .hbm, ⟨86, _⟩ => ⟨S128, .i1⟩
  | .hbm, ⟨87, _⟩ => ⟨S_, .i32⟩
  | .hbm, ⟨88, _⟩ => ⟨S128, .i32⟩
  | .hbm, ⟨89, _⟩ => ⟨S128, .i32⟩
  | .hbm, ⟨90, _⟩ => ⟨S128, .i32⟩
  | .hbm, ⟨91, _⟩ => ⟨S128x1, .i32⟩
  | .hbm, ⟨92, _⟩ => ⟨S16x128x1024, .f32⟩
  | .hbm, ⟨93, _⟩ => ⟨S16x128x256, .f32⟩
  | .hbm, ⟨94, _⟩ => ⟨S1x1x256, .f32⟩
  | .hbm, ⟨95, _⟩ => ⟨S16x128x256, .f32⟩
  | .hbm, ⟨96, _⟩ => ⟨S16x128x256, .f32⟩
  | .hbm, ⟨97, _⟩ => ⟨S_, .f32⟩
  | .hbm, ⟨98, _⟩ => ⟨S16x128x256, .f32⟩
  | .hbm, ⟨99, _⟩ => ⟨S16x128x256, .f32⟩
  | .hbm, ⟨100, _⟩ => ⟨S16x128x256, .f32⟩
  | .hbm, ⟨101, _⟩ => ⟨S1x1x256, .f32⟩
  | .hbm, ⟨102, _⟩ => ⟨S16x128x256, .f32⟩
  | .hbm, ⟨103, _⟩ => ⟨S16x128x256, .f32⟩
  | .hbm, ⟨104, _⟩ => ⟨S16x128x256, .f32⟩
  | .hbm, ⟨105, _⟩ => ⟨S_, .f32⟩
  | .hbm, ⟨106, _⟩ => ⟨S16x128, .f32⟩
  | .hbm, ⟨107, _⟩ => ⟨S16x128x1, .f32⟩
  | .hbm, ⟨108, _⟩ => ⟨S16x128x1, .f32⟩
  | .hbm, ⟨109, _⟩ => ⟨S_, .f32⟩
  | .hbm, ⟨110, _⟩ => ⟨S16x128x1, .f32⟩
  | .hbm, ⟨111, _⟩ => ⟨S16x128x1, .f32⟩
  | .hbm, ⟨112, _⟩ => ⟨S16x128x256, .f32⟩
  | .hbm, ⟨113, _⟩ => ⟨S16x128x256, .f32⟩
  | .hbm, ⟨114, _⟩ => ⟨S1x16x128x256, .f32⟩
  | .hbm, ⟨115, _⟩ => ⟨S1x16x128x256, .f32⟩
  | .hbm, ⟨116, _⟩ => ⟨S1x16x128x256, .f32⟩
  | .hbm, ⟨117, _⟩ => ⟨S3x16x128x256, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call0_cst : Ref sig .tc := ⟨.hbm, 33, rfl⟩
abbrev main_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_2 : Ref sig .tc := ⟨.hbm, 52, rfl⟩
abbrev main_v28 : Ref sig .tc := ⟨.hbm, 53, rfl⟩
abbrev main_v29 : Ref sig .tc := ⟨.hbm, 54, rfl⟩
abbrev main_c_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_6 : Ref sig .tc := ⟨.hbm, 84, rfl⟩
abbrev main_v54 : Ref sig .tc := ⟨.hbm, 85, rfl⟩
abbrev main_v55 : Ref sig .tc := ⟨.hbm, 86, rfl⟩
abbrev main_c_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call2_cst : Ref sig .tc := ⟨.hbm, 97, rfl⟩
abbrev main_call2_v0 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_8 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_9 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  transposes_S16x256x128x128_S16x128x128x256_0_2_3_1 : S16x256x128x128.Transposes [0, 2, 3, 1] S16x128x128x256
  shapeCasts_S16x128x128x256_S16x16384x256 : S16x128x128x256.ShapeCasts S16x16384x256
  bcast_S_S128 : S_.BroadcastsInDim S128 (![] : Fin 0 → Fin S128.rank)
  bcast_S128_S128x1_0 : S128.BroadcastsInDim S128x1 (![0] : Fin 1 → Fin S128x1.rank)
  bcast_S256_S1x1x256_2 : S256.BroadcastsInDim S1x1x256 (![2] : Fin 1 → Fin S1x1x256.rank)
  bcast_S1x1x256_S16x128x256_0_1_2 : S1x1x256.BroadcastsInDim S16x128x256 (![0, 1, 2] : Fin 3 → Fin S16x128x256.rank)
  bcast_S_S16x128x256 : S_.BroadcastsInDim S16x128x256 (![] : Fin 0 → Fin S16x128x256.rank)
  reducesTo_S16x128x256_S16x128_d2 : S16x128x256.ReducesTo [2] S16x128
  h_S_ : 0 < S_.numel
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S16x128x1_S16x128x256_0_1_2 : S16x128x1.BroadcastsInDim S16x128x256 (![0, 1, 2] : Fin 3 → Fin S16x128x256.rank)
  transposes_S16x512x64x64_S16x64x64x512_0_2_3_1 : S16x512x64x64.Transposes [0, 2, 3, 1] S16x64x64x512
  shapeCasts_S16x64x64x512_S16x4096x512 : S16x64x64x512.ShapeCasts S16x4096x512
  transposes_S16x1024x32x32_S16x32x32x1024_0_2_3_1 : S16x1024x32x32.Transposes [0, 2, 3, 1] S16x32x32x1024
  shapeCasts_S16x32x32x1024_S16x1024x1024 : S16x32x32x1024.ShapeCasts S16x1024x1024
  bcast_S16x128x256_S1x16x128x256_1_2_3 : S16x128x256.BroadcastsInDim S1x16x128x256 (![1, 2, 3] : Fin 3 → Fin S1x16x128x256.rank)
  concatenates_S1x16x128x256_S1x16x128x256_S1x16x128x256_S3x16x128x256_d0 : Shape.Concatenates [S1x16x128x256, S1x16x128x256, S1x16x128x256] S3x16x128x256 0
  gather_S16x16384x256_S128x1_S16x128x256_02_1_n_n_1_1_161256_wf : GatherDims.WF S16x16384x256 S128x1 S16x128x256 [0, 2] [1] [] [1] [] 1 ![16, 1, 256]
  dot_S16x128x256_S256x256_S16x128x256_2_0_01_1_n_n_wf : DotDims.WF S16x128x256 S256x256 S16x128x256 [2] [0] [0, 1] [1] [] []
  gather_S16x4096x512_S128x1_S16x128x512_02_1_n_n_1_1_161512_wf : GatherDims.WF S16x4096x512 S128x1 S16x128x512 [0, 2] [1] [] [1] [] 1 ![16, 1, 512]
  dot_S16x128x512_S512x256_S16x128x256_2_0_01_1_n_n_wf : DotDims.WF S16x128x512 S512x256 S16x128x256 [2] [0] [0, 1] [1] [] []
  gather_S16x1024x1024_S128x1_S16x128x1024_02_1_n_n_1_1_1611024_wf : GatherDims.WF S16x1024x1024 S128x1 S16x128x1024 [0, 2] [1] [] [1] [] 1 ![16, 1, 1024]
  dot_S16x128x1024_S1024x256_S16x128x256_2_0_01_1_n_n_wf : DotDims.WF S16x128x1024 S1024x256 S16x128x256 [2] [0] [0, 1] [1] [] []

variable [Facts₀]

def gather_S16x16384x256_S128x1_S16x128x256_02_1_n_n_1_1_161256 : GatherDims S16x16384x256 S128x1 S16x128x256 where
  offsetDims := [0, 2]
  collapsedSliceDims := [1]
  operandBatchingDims := []
  startIndicesBatchingDims := []
  startIndexMap := [1]
  indexVectorDim := 1
  sliceSizes := ![16, 1, 256]
  wf := gather_S16x16384x256_S128x1_S16x128x256_02_1_n_n_1_1_161256_wf
def dot_S16x128x256_S256x256_S16x128x256_2_0_01_1_n_n : DotDims S16x128x256 S256x256 S16x128x256 where
  lhsContracting := [2]
  rhsContracting := [0]
  lhsNonContracting := [0, 1]
  rhsNonContracting := [1]
  lhsBatch := []
  rhsBatch := []
  wf := dot_S16x128x256_S256x256_S16x128x256_2_0_01_1_n_n_wf
def gather_S16x4096x512_S128x1_S16x128x512_02_1_n_n_1_1_161512 : GatherDims S16x4096x512 S128x1 S16x128x512 where
  offsetDims := [0, 2]
  collapsedSliceDims := [1]
  operandBatchingDims := []
  startIndicesBatchingDims := []
  startIndexMap := [1]
  indexVectorDim := 1
  sliceSizes := ![16, 1, 512]
  wf := gather_S16x4096x512_S128x1_S16x128x512_02_1_n_n_1_1_161512_wf
def dot_S16x128x512_S512x256_S16x128x256_2_0_01_1_n_n : DotDims S16x128x512 S512x256 S16x128x256 where
  lhsContracting := [2]
  rhsContracting := [0]
  lhsNonContracting := [0, 1]
  rhsNonContracting := [1]
  lhsBatch := []
  rhsBatch := []
  wf := dot_S16x128x512_S512x256_S16x128x256_2_0_01_1_n_n_wf
def gather_S16x1024x1024_S128x1_S16x128x1024_02_1_n_n_1_1_1611024 : GatherDims S16x1024x1024 S128x1 S16x128x1024 where
  offsetDims := [0, 2]
  collapsedSliceDims := [1]
  operandBatchingDims := []
  startIndicesBatchingDims := []
  startIndexMap := [1]
  indexVectorDim := 1
  sliceSizes := ![16, 1, 1024]
  wf := gather_S16x1024x1024_S128x1_S16x128x1024_02_1_n_n_1_1_1611024_wf
def dot_S16x128x1024_S1024x256_S16x128x256_2_0_01_1_n_n : DotDims S16x128x1024 S1024x256 S16x128x256 where
  lhsContracting := [2]
  rhsContracting := [0]
  lhsNonContracting := [0, 1]
  rhsNonContracting := [1]
  lhsBatch := []
  rhsBatch := []
  wf := dot_S16x128x1024_S1024x256_S16x128x256_2_0_01_1_n_n_wf

class Facts : Prop extends Facts₀ where

variable [Facts]
-- ==== Proof.IdxRange.lean ====
import proofs.«428561_j53893249630457_3_alg».proof.Defs
import Idealize.ShloMosaic.Lib.ReduceAll
import Idealize.ShloMosaic.Lib.StableHlo.Predicate

noncomputable section

namespace Cert.Hand.IdxRange

open Idealize.ShloMosaic Cert.Pre_finite_inputs

instance : Subsingleton S_.Idx := ⟨fun a b => funext fun d => d.elim0⟩

def i0 : S_.Idx := fun d => d.elim0

-- A word that is non-negative and below n as a signed number is below n as a natural number.
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  have hw : 2 * w.toNat < 2 ^ 32 := BitVec.toInt_pos_iff.1 h0
  rw [IntOp.cmpi_slt, BitVec.toInt_eq_toNat_of_lt hw, StableHlo.Predicate.toInt_ofNat_small n hn] at h1
  exact_mod_cast h1

variable [Cert.Pre_finite_inputs.Facts]

theorem range_of_all (a : IVec S128 32) (n : Nat) (hn : n < 2 ^ 31)
    (hge : Host.reduce IntOp.andi (cmpi .sge a (broadcastInDim S128 ![] Facts.bcast_S_S128 (constantI S_ 32 0#32)))
      (constantI S_ 1 1#1) Facts.reducesTo_S128_S_d0 Facts.h_S_ i0 = 1#1)
    (hlt : Host.reduce IntOp.andi (cmpi .slt a (broadcastInDim S128 ![] Facts.bcast_S_S128 (constantI S_ 32 (BitVec.ofNat 32 n))))
      (constantI S_ 1 1#1) Facts.reducesTo_S128_S_d0 Facts.h_S_ i0 = 1#1)
    (j : S128.Idx) : (a j).toNat < n :=
  toNat_lt_of_signed (a j) n hn (Host.reduce_andi_all _ _ _ _ _ hge j) (Host.reduce_andi_all _ _ _ _ _ hlt j)

-- The precondition's six range conjuncts, read off its printed predicate: every position lies inside its map.
theorem decode (a0 : FVec Ideal S16x256x128x128 .f32) (a1 : FVec Ideal S16x512x64x64 .f32) (a2 : FVec Ideal S16x1024x32x32 .f32)
    (a3 a4 a5 : IVec S128 32) (a6 : FVec Ideal S256x256 .f32) (a7 : FVec Ideal S256 .f32) (a8 : FVec Ideal S256x256 .f32)
    (a9 : FVec Ideal S256 .f32) (a10 : FVec Ideal S512x256 .f32) (a11 : FVec Ideal S256 .f32) (a12 : FVec Ideal S256x256 .f32)
    (a13 : FVec Ideal S256 .f32) (a14 : FVec Ideal S1024x256 .f32) (a15 : FVec Ideal S256 .f32) (a16 : FVec Ideal S256x256 .f32)
    (a17 : FVec Ideal S256 .f32)
    (e : fn (F := Ideal) a0 a1 a2 a3 a4 a5 a6 a7 a8 a9 a10 a11 a12 a13 a14 a15 a16 a17 = fun _ => 1#1) :
    (∀ j : S128.Idx, (a3 j).toNat < 16384) ∧ (∀ j : S128.Idx, (a4 j).toNat < 4096) ∧ (∀ j : S128.Idx, (a5 j).toNat < 1024) := by
  have e0 := congrFun e i0
  dsimp only [fn, fn_part1, fn_part2, fn_part3, fn_part4, fn_part5] at e0
  simp only [andi, IntOp.andi_eq_one] at e0
  obtain ⟨⟨⟨⟨⟨⟨-, h3ge⟩, h3lt⟩, h4ge⟩, h4lt⟩, h5ge⟩, h5lt⟩ := e0
  exact ⟨range_of_all a3 16384 (by decide) h3ge h3lt, range_of_all a4 4096 (by decide) h4ge h4lt,
    range_of_all a5 1024 (by decide) h5ge h5lt⟩

theorem idx_ranges (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : S128.Idx, ((m ((c.tc : Thread Cert.KernelIdeal.nD Cert.KernelIdeal.τ).loc Cert.KernelIdeal.main_arg3) : IVec S128 32) j).toNat < 16384)
    ∧ (∀ j : S128.Idx, ((m ((c.tc : Thread Cert.KernelIdeal.nD Cert.KernelIdeal.τ).loc Cert.KernelIdeal.main_arg4) : IVec S128 32) j).toNat < 4096)
    ∧ (∀ j : S128.Idx, ((m ((c.tc : Thread Cert.KernelIdeal.nD Cert.KernelIdeal.τ).loc Cert.KernelIdeal.main_arg5) : IVec S128 32) j).toNat < 1024) :=
  decode _ _ _ _ _ _ _ _ _ _ _ _ _ _ _ _ _ _ (h c)

end Cert.Hand.IdxRange

end
-- ==== Proof.K.Body0.lean ====
import proofs.«428561_j53893249630457_3_alg».proof.Proof.Gen.Kernel.Launch
import proofs.«428561_j53893249630457_3_alg».proof.Proof.Gen.Kernel.Skeleton
import proofs.«428561_j53893249630457_3_alg».proof.Proof.Gen.Kernel.Points
import Idealize.ShloMosaic.Lib.Pipeline.FrameBody
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev clears0 (i : grid0.Coords) : Prop :=
  (Scalar.cmpi .ne (Scalar.extui (Scalar.cmpi .eq (BitVec.ofNat 32 (i 1).val) 0#32)) 0#32) = 1#1

abbrev emits0 (i : grid0.Coords) : Prop := k0_cond2 i = 1#1

theorem clears0_iff : ∀ t : Fin cfg0.N, clears0 (grid0.coords t) ↔ t.val % 2 = 0 :=
  (by decide +kernel : ∀ t : Fin grid0.N, clears0 (grid0.coords t) ↔ t.val % 2 = 0)

theorem emits0_iff : ∀ t : Fin cfg0.N, emits0 (grid0.coords t) ↔ t.val % 2 = 1 :=
  (by decide +kernel : ∀ t : Fin grid0.N, emits0 (grid0.coords t) ↔ t.val % 2 = 1)

noncomputable def firstHalf0 (c : Dev nD) (i : grid0.Coords)
    (arg2 : Memref sig .tc .vmem S1x256x8192 .f32) (harg2 : arg2.IsWhole) (arg3 : Memref sig .tc .vmem S128x16384 .bf16) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1x128x256 .f32) (harg8 : arg8.IsWhole) (arg9 : Memref sig .tc .vmem S1x128x256 .f32) (harg9 : arg9.IsWhole)
    (hz : clears0 i) (he : ¬ emits0 i)
    (x0 : Vec F S1x256x8192 .f32) (x1 : Vec F S128x16384 .bf16) :
    { LS : List (View.Piece (Elt F) S1x128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d9, %f9, -, H9⟩, Hk⟩
    obtain rfl := harg2.eq_unread hf0; obtain rfl := harg3.eq_unread hf1
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact H9

noncomputable def lastHalf0 (c : Dev nD) (i : grid0.Coords)
    (arg2 : Memref sig .tc .vmem S1x256x8192 .f32) (harg2 : arg2.IsWhole) (arg3 : Memref sig .tc .vmem S128x16384 .bf16) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1x128x256 .f32) (harg8 : arg8.IsWhole) (arg9 : Memref sig .tc .vmem S1x128x256 .f32) (harg9 : arg9.IsWhole)
    (hz : ¬ clears0 i) (he : emits0 i)
    (x0 : Vec F S1x256x8192 .f32) (x1 : Vec F S128x16384 .bf16) (x2 : Vec F S256x256 .f32) (x3 : Vec F S1x256 .f32)
    (x4 : Vec F S256x256 .f32) (x5 : Vec F S1x256 .f32) (s : Vec F S1x128x256 .f32) :
    { L : List (View.Piece (Elt F) S1x128x256 .f32) × List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare s
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨⟨?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf9
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; iexact H8
    iexists _; iexact H9

end Cert.Kernel.Hand

end
-- ==== Proof.K.Data0.lean ====
import proofs.«428561_j53893249630457_3_alg».proof.Proof.K.Body0
import Idealize.ShloMosaic.Lib.Pipeline.FrameBody
import Idealize.ShloMosaic.Lib.Ring
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x256x8192 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S128x16384 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S256x256 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1x256 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S256x256 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x256 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x128x256 .f32 := win0_6.stage (cfg0.slots t 6)

abbrev hs0_6 (t : Fin cfg0.N) : (ms0_6 t).IsWhole := hstage0_6 ((cfg0.slots t 6).cast nbuf0_6)

abbrev scr0 : Memref sig .tc .vmem S1x128x256 .f32 := Memref.whole cc0_scratch0

abbrev hscr0 : (scr0).IsWhole := Memref.isWhole_whole _

abbrev VS0 : View sig .tc .vmem S1x128x256 .f32 := (scr0).view

abbrev VO0 : View sig .tc .vmem S1x128x256 .f32 := (Memref.whole cc0_stg6_0 : Memref sig .tc .vmem S1x128x256 .f32).view

abbrev fh0 (c : Dev nD) (t : Fin cfg0.N) (h : t.val % 2 = 0) :=
  firstHalf0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr0 hscr0
    ((clears0_iff t).mpr h) (fun he => absurd ((emits0_iff t).mp he) (by omega)) (iblk0 V c 0 t) (iblk0 V c 1 t)

theorem coverS_first0 (c : Dev nD) (t : Fin cfg0.N) (h : t.val % 2 = 0) (y : S1x128x256.Idx) :
    ∃ pc ∈ (fh0 V c t h).1, y ∈ pc.1.set :=
  View.cover_of_tiledL (fh0 V c t h).1 S1x128x256.size (by sl_kernel_rfl) y

def selFirst0 (c : Dev nD) (t : Fin cfg0.N) (h : t.val % 2 = 0) : Vec F S1x128x256 .f32 :=
  VS0.read (Elt F) (VS0.writes (Elt F) VS0.junk (fh0 V c t h).1)

def carried0 (c : Dev nD) (n : ℕ) : Vec F S1x128x256 .f32 :=
  if h : n < cfg0.N ∧ n % 2 = 0 then selFirst0 V c ⟨n, h.1⟩ h.2 else VS0.read (Elt F) VS0.junk

abbrev lh0 (c : Dev nD) (t : Fin cfg0.N) (h : t.val % 2 = 1) :=
  lastHalf0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr0 hscr0
    (fun hz => absurd ((clears0_iff t).mp hz) (by omega)) ((emits0_iff t).mpr h)
    (iblk0 V c 0 t) (iblk0 V c 1 t) (iblk0 V c 2 t) (iblk0 V c 3 t) (iblk0 V c 4 t) (iblk0 V c 5 t) (carried0 V c (t.val - 1))

theorem coverO_last0 (c : Dev nD) (t : Fin cfg0.N) (h : t.val % 2 = 1) (y : S1x128x256.Idx) :
    ∃ pc ∈ (lh0 V c t h).1.1, y ∈ pc.1.set :=
  View.cover_of_tiledL (lh0 V c t h).1.1 S1x128x256.size (by sl_kernel_rfl) y

def outLast0 (c : Dev nD) (t : Fin cfg0.N) (h : t.val % 2 = 1) : Vec F S1x128x256 .f32 :=
  VO0.read (Elt F) (VO0.writes (Elt F) VO0.junk (lh0 V c t h).1.1)

def scratchAt0 (c : Dev nD) (k : ℕ) : sProp 𝕄 :=
  iprop(∃ d : Vec F S1x128x256 .f32, ⌜k % 2 = 1 → d = carried0 V c (k - 1)⌝ ∗ owns (c : Thread nD τ) scr0 fullShare d)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => if h : t.val % 2 = 1 then outLast0 V c t h else VO0.read (Elt F) VO0.junk
  Φ k := iprop(scratchAt0 V c k.val
    ∗ Pipeline.scopedRestBut (Ix := Unit) (Name := ℕ) (U := UR sig nD τ) (Lvl := ℕ) (Val := Elt F) spec0 c [cc0_scratch0]
    ∗ ∃ r, prngReg c r)
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) (h : t.val % 2 = 1) : (dat0 V c).after 6 t = outLast0 V c t h := by
  dsimp only [dat0]; rw [dif_pos h]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;> exact fun d =>
    ((dat0 V c).before_in_eq_fetched _ rfl (fun _ => rfl) (fun _ _ _ => rfl) (fun _ => rfl) t d).trans rfl

theorem Φ_eq0 (c : Dev nD) (k : Fin (cfg0.N + 1)) (n : ℕ) (hn : k.val = n) : (dat0 V c).Φ k = iprop(scratchAt0 V c n
    ∗ Pipeline.scopedRestBut (Ix := Unit) (Name := ℕ) (U := UR sig nD τ) (Lvl := ℕ) (Val := Elt F) spec0 c [cc0_scratch0] ∗ ∃ r, prngReg c r) := by
  subst hn; rfl

def bodyPre0 (c : Dev nD) (t : Fin cfg0.N) : sProp 𝕄 :=
  let P (w : Fin cfg0.W) (m : Memref sig .tc .vmem (cfg0.win w).block (cfg0.win w).elt) : sProp 𝕄 :=
    iprop(∃ d, owns (c : Thread nD τ) m fullShare ((dat0 V c).before w t d))
  iprop((dat0 V c).Φ t.castSucc ∗ (dat0 V c).owesAt () t.castSucc ∗ P 0 (ms0_0 t) ∗ P 1 (ms0_1 t) ∗ P 2 (ms0_2 t) ∗ P 3 (ms0_3 t)
    ∗ P 4 (ms0_4 t) ∗ P 5 (ms0_5 t) ∗ P 6 (ms0_6 t))

def bodyPostFirst0 (c : Dev nD) (t : Fin cfg0.N) : sProp 𝕄 :=
  let Q (w : Fin cfg0.W) (m : Memref sig .tc .vmem (cfg0.win w).block (cfg0.win w).elt)
      (x : (cfg0.win w).block.Idx → Elt F (cfg0.win w).elt) : sProp 𝕄 := owns (c : Thread nD τ) m fullShare x
  iprop((dat0 V c).Φ t.succ ∗ (dat0 V c).owesAt () t.castSucc ∗ Q 0 (ms0_0 t) (iblk0 V c 0 t) ∗ Q 1 (ms0_1 t) (iblk0 V c 1 t) ∗ Q 2 (ms0_2 t) (iblk0 V c 2 t)
    ∗ Q 3 (ms0_3 t) (iblk0 V c 3 t) ∗ Q 4 (ms0_4 t) (iblk0 V c 4 t) ∗ Q 5 (ms0_5 t) (iblk0 V c 5 t)
    ∗ (∃ d, owns (c : Thread nD τ) (ms0_6 t) fullShare ((dat0 V c).before 6 t d)))

def bodyPostLast0 (c : Dev nD) (t : Fin cfg0.N) : sProp 𝕄 :=
  let Q (w : Fin cfg0.W) (m : Memref sig .tc .vmem (cfg0.win w).block (cfg0.win w).elt)
      (x : (cfg0.win w).block.Idx → Elt F (cfg0.win w).elt) : sProp 𝕄 := owns (c : Thread nD τ) m fullShare x
  iprop((dat0 V c).Φ t.succ ∗ (dat0 V c).owesAt () t.castSucc ∗ Q 0 (ms0_0 t) (iblk0 V c 0 t) ∗ Q 1 (ms0_1 t) (iblk0 V c 1 t) ∗ Q 2 (ms0_2 t) (iblk0 V c 2 t)
    ∗ Q 3 (ms0_3 t) (iblk0 V c 3 t) ∗ Q 4 (ms0_4 t) (iblk0 V c 4 t) ∗ Q 5 (ms0_5 t) (iblk0 V c 5 t)
    ∗ Q 6 (ms0_6 t) ((dat0 V c).after 6 t))

theorem sound_first0 (c : Dev nD) (t : Fin cfg0.N) (h : t.val % 2 = 0) :
    bodyPre0 V c t ⊢ wp frame (wpE (defs₀ (F := F)) Variants.none c none) Set.univ (bodyAt0 t) (fun _ => bodyPostFirst0 V c t) := by
  unfold bodyPre0 bodyPostFirst0 bodyAt0
  obtain ⟨b0, b1, b2, b3, b4, b5⟩ := before0 V c t
  simp only [b0, b1, b2, b3, b4, b5]
  rw [Φ_eq0 V c t.castSucc t.val rfl, Φ_eq0 V c t.succ (t.val + 1) rfl]
  unfold scratchAt0
  iintro ⟨⟨⟨%d9, -, H9⟩, Hrest⟩, Ho, ⟨%d0, H0⟩, ⟨%d1, H1⟩, ⟨%d2, H2⟩, ⟨%d3, H3⟩, ⟨%d4, H4⟩, ⟨%d5, H5⟩, H6⟩
  iapply ((fh0 V c t h).2 Set.univ _)
  iframe H0 H1
  isplitl [H9]; · iexists _; iexact H9
  iintro ⟨H0, H1, ⟨%e9, H9⟩⟩
  iframe Hrest Ho H0 H1 H2 H3 H4 H5 H6
  iexists (selFirst0 V c t h); isplitr
  · ipureintro; intro _
    unfold carried0; rw [dif_pos ⟨t.isLt, h⟩]; rfl
  · unfold owns; iexists _; isplitr
    swap; · iexact H9
    ipureintro; exact View.read_writes_of_cover _ _ _ _ _ (coverS_first0 V c t h)

theorem sound_last0 (c : Dev nD) (t : Fin cfg0.N) (h : t.val % 2 = 1) :
    bodyPre0 V c t ⊢ wp frame (wpE (defs₀ (F := F)) Variants.none c none) Set.univ (bodyAt0 t) (fun _ => bodyPostLast0 V c t) := by
  unfold bodyPre0 bodyPostLast0 bodyAt0
  obtain ⟨b0, b1, b2, b3, b4, b5⟩ := before0 V c t
  simp only [b0, b1, b2, b3, b4, b5]
  rw [after0_6 V c t h, Φ_eq0 V c t.castSucc t.val rfl, Φ_eq0 V c t.succ (t.val + 1) rfl]
  unfold scratchAt0
  iintro ⟨⟨⟨%d9, %hd9, H9⟩, Hrest⟩, Ho, ⟨%d0, H0⟩, ⟨%d1, H1⟩, ⟨%d2, H2⟩, ⟨%d3, H3⟩, ⟨%d4, H4⟩, ⟨%d5, H5⟩, ⟨%d6, H6⟩⟩
  obtain rfl := hd9 h
  iapply ((lh0 V c t h).2 Set.univ _)
  iframe H0 H1 H2 H3 H4 H5 H9
  isplitl [H6]; · iexists _; iexact H6
  iintro ⟨H0, H1, H2, H3, H4, H5, ⟨%e6, H6⟩, ⟨%e9, H9⟩⟩
  iframe Hrest Ho H0 H1 H2 H3 H4 H5
  isplitl [H9]
  · iexists (VS0.read (Elt F) (VS0.writes (Elt F) e9 (lh0 V c t h).1.2)); isplitr
    · ipureintro; intro h'; omega
    · unfold owns; iexists _; isplitr
      swap; · iexact H9
      ipureintro; rfl
  unfold owns; iexists _; isplitr
  swap; · iexact H6
  ipureintro; exact View.read_writes_of_cover _ _ _ _ _ (coverO_last0 V c t h)

theorem idle0_6_even (t : Fin cfg0.N) (h : t.val % 2 = 0) : idle0 6 (grid0.coords t) = true := by
  have : ¬ emits0 (grid0.coords t) := fun he => absurd ((emits0_iff t).mp he) (by omega)
  show (!(k0_cond2 (grid0.coords t) == 1#1)) = true
  simpa [emits0] using this

theorem idle0_6_odd (t : Fin cfg0.N) (h : t.val % 2 = 1) : idle0 6 (grid0.coords t) = false := by
  have : emits0 (grid0.coords t) := (emits0_iff t).mpr h
  show (!(k0_cond2 (grid0.coords t) == 1#1)) = false
  simpa [emits0] using this

theorem flush0_6_even (t : Fin cfg0.N) (h : t.val % 2 = 0) : (win0 6).flush t = false :=
  Bool.eq_false_iff.mpr fun hf => by have := (flush0_6 t).mp hf; omega

theorem body_obligation0 (c : Dev nD) : BodyObligation (dat0 (F := F) V c) (defs₀ (F := F)) Variants.none () Set.univ := fun t => by
  rw [bigSep_W0, bigSep_W0]
  rcases Nat.mod_two_eq_zero_or_one t.val with h | h
  · simp only [idle0_6_even t h, flush0_6_even t h]
    exact sound_first0 V c t h
  · simp only [idle0_6_odd t h]
    exact sound_last0 V c t h

end Cert.Kernel.Hand

end
-- ==== Proof.K.Body1.lean ====
import proofs.«428561_j53893249630457_3_alg».proof.Proof.Gen.Kernel.Launch
import proofs.«428561_j53893249630457_3_alg».proof.Proof.Gen.Kernel.Skeleton
import proofs.«428561_j53893249630457_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) :=
  (by decide +kernel : ∀ t : Fin grid1.N, cond1_0 (grid1.coords t))

theorem hcond1_1 : ∀ t : Fin cfg1.N, k1_cond2 (grid1.coords t) = 1#1 :=
  (by decide +kernel : ∀ t : Fin grid1.N, k1_cond2 (grid1.coords t) = 1#1)

theorem hoff1 : ∀ t : Fin cfg1.N, k1_off1 (grid1.coords t) = fun _ => 0 :=
  (by decide +kernel : ∀ t : Fin grid1.N, k1_off1 (grid1.coords t) = fun _ => 0)

def acc1 (x0 : Vec F S1x512x4096 .f32) (x1 : Vec F S128x4096 .bf16) : Vec F S1x128x512 .f32 :=
  k1_pay2 x1 x0 k1_pay1

def out1 (x0 : Vec F S1x512x4096 .f32) (x1 : Vec F S128x4096 .bf16) (x2 : Vec F S512x256 .f32) (x3 : Vec F S1x256 .f32)
    (x4 : Vec F S256x256 .f32) (x5 : Vec F S1x256 .f32) : Vec F S1x128x256 .f32 :=
  k1_pay3 (acc1 x0 x1) x2 x3 x4 x5

theorem zeros3 : (![0, 0, 0] : Fin 3 → ℕ) = fun _ => 0 := by funext a; fin_cases a <;> rfl

theorem zeros2 : (![0, 0] : Fin 2 → ℕ) = fun _ => 0 := by funext a; fin_cases a <;> rfl

theorem cover_head {S : Shape} {e : EltTy} {off : Fin S.rank → ℕ} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

theorem sound_kernel1 (c : Dev nD) (E : Set ℕ) (t : Fin cfg1.N) (arg2 : Memref sig .tc .vmem S1x512x4096 .f32) (harg2 : arg2.IsWhole) (arg3 : Memref sig .tc .vmem S128x4096 .bf16) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x256 .f32) (harg8 : arg8.IsWhole) (arg9 : Memref sig .tc .vmem S1x128x512 .f32) (harg9 : arg9.IsWhole)
    (x0 : Vec F S1x512x4096 .f32) (x1 : Vec F S128x4096 .bf16) (x2 : Vec F S512x256 .f32) (x3 : Vec F S1x256 .f32) (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out1 x0 x1 x2 x3 x4 x5) ∗ owns (c : Thread nD τ) arg9 fullShare (acc1 x0 x1)) -∗ K ⟨⟩))
      ⊢ wp frame (wpE (defs₀ (F := F)) Variants.none c none) E (cc1_kernel (grid1.coords t) arg2 harg2 arg3 harg3 arg4 harg4 arg5 harg5 arg6 harg6 arg7 harg7 arg8 harg8 arg9 harg9) K := by
  have hc0 := hcond1_0 t
  have hc1 := hcond1_1 t
  have hz := hoff1 t
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    sl_unfold_run_names
    rw [View.read_writes_eq_canon _ _ _ (cover_head (S := S1x128x256) zeros3 _ _ _), View.canon_unit_zero (S := S1x128x256) zeros3,
      View.readCov_eq_canon_ld _ _ _ (cover_head (S := S1x128x512) zeros3 _ _ _), View.ld_unit_zero (S := S1x128x512) zeros3,
      View.canon_cons_unit_zero (S := S1x128x512) zeros3, View.readCov_unit_zero (S := S1x128x512) _ zeros3]
    simp only [View.readAt_eq_ld, View.ld_unit_zero (S := S128x4096) hz, View.ld_unit_zero (S := S1x512x4096) zeros3,
      View.ld_unit_zero (S := S512x256) zeros2, View.ld_unit_zero (S := S1x256) zeros2, View.ld_unit_zero (S := S256x256) zeros2]
    rfl
  iexists _; isplitr
  swap; · iexact H7
  ipureintro
  sl_unfold_run_names
  rw [View.read_writes_eq_canon _ _ _ (cover_head (S := S1x128x512) zeros3 _ _ _), View.canon_cons_unit_zero (S := S1x128x512) zeros3,
    View.readCov_unit_zero (S := S1x128x512) _ zeros3]
  simp only [View.readAt_eq_ld, View.ld_unit_zero (S := S128x4096) hz, View.ld_unit_zero (S := S1x512x4096) zeros3]
  rfl

end Cert.Kernel.Hand

end
-- ==== Proof.K.Data1.lean ====
import proofs.«428561_j53893249630457_3_alg».proof.Proof.K.Body1
import Idealize.ShloMosaic.Lib.Pipeline.FrameBody
import Idealize.ShloMosaic.Lib.Ring
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1 (t : Fin cfg1.N) (w : Fin cfg1.W) := (cfg1.win w).stage (cfg1.slots t w)

abbrev scr1 : Memref sig .tc .vmem S1x128x512 .f32 := Memref.whole cc1_scratch0

abbrev hscr1 : (scr1).IsWhole := Memref.isWhole_whole _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := iprop((∃ d : Vec F S1x128x512 .f32, owns (c : Thread nD τ) (Memref.whole cc1_scratch0 : Memref sig .tc .vmem S1x128x512 .f32) fullShare d)
    ∗ Pipeline.scopedRestBut (Ix := Unit) (Name := ℕ) (U := UR sig nD τ) (Lvl := ℕ) (Val := Elt F) spec1 c [cc1_scratch0] ∗ ∃ r, prngReg c r)
  q _ := fullShare
  owed _ := 0

theorem A_eq1 (c : Dev nD) (w : Fin cfg1.W) : (dat1 V c).A w = V c (Pipeline.arrRef spec1 w) := by
  dsimp only [dat1]

theorem Φ_eq1 (c : Dev nD) (k : Fin (cfg1.N + 1)) : (dat1 V c).Φ k = iprop((∃ d : Vec F S1x128x512 .f32, owns (c : Thread nD τ) (Memref.whole cc1_scratch0 : Memref sig .tc .vmem S1x128x512 .f32) fullShare d)
    ∗ Pipeline.scopedRestBut (Ix := Unit) (Name := ℕ) (U := UR sig nD τ) (Lvl := ℕ) (Val := Elt F) spec1 c [cc1_scratch0] ∗ ∃ r, prngReg c r) := rfl

theorem after1_6 (c : Dev nD) (t : Fin cfg1.N) :
    (dat1 V c).after 6 t = out1 (iblk1 V c 0 t) (iblk1 V c 1 t) (iblk1 V c 2 t) (iblk1 V c 3 t) (iblk1 V c 4 t) (iblk1 V c 5 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> exact fun d =>
    ((dat1 V c).before_in_eq_fetched _ rfl (fun _ => rfl) (fun _ _ _ => rfl) (fun _ => rfl) t d).trans rfl

def bodyPre1 (c : Dev nD) (t : Fin cfg1.N) : sProp 𝕄 :=
  let P (w : Fin cfg1.W) : sProp 𝕄 := iprop(∃ d, owns (c : Thread nD τ) (ms1 t w) fullShare ((dat1 V c).before w t d))
  iprop((dat1 V c).Φ t.castSucc ∗ (dat1 V c).owesAt () t.castSucc ∗ P 0 ∗ P 1 ∗ P 2 ∗ P 3 ∗ P 4 ∗ P 5 ∗ P 6)

def bodyPost1 (c : Dev nD) (t : Fin cfg1.N) : sProp 𝕄 :=
  let Q (w : Fin cfg1.W) (x : (cfg1.win w).block.Idx → Elt F (cfg1.win w).elt) : sProp 𝕄 := owns (c : Thread nD τ) (ms1 t w) fullShare x
  iprop((dat1 V c).Φ t.succ ∗ (dat1 V c).owesAt () t.castSucc ∗ Q 0 (iblk1 V c 0 t) ∗ Q 1 (iblk1 V c 1 t) ∗ Q 2 (iblk1 V c 2 t)
    ∗ Q 3 (iblk1 V c 3 t) ∗ Q 4 (iblk1 V c 4 t) ∗ Q 5 (iblk1 V c 5 t) ∗ Q 6 ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5⟩ := before1 V c t
  simp only [b0, b1, b2, b3, b4, b5]
  rw [after1_6, Φ_eq1, Φ_eq1]
  iintro ⟨⟨⟨%d9, H9⟩, Hrest⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ t (ms1 t 0) (stage_whole1 0 _) (ms1 t 1) (stage_whole1 1 _) (ms1 t 2) (stage_whole1 2 _) (ms1 t 3) (stage_whole1 3 _)
    (ms1 t 4) (stage_whole1 4 _) (ms1 t 5) (stage_whole1 5 _) (ms1 t 6) (stage_whole1 6 _) scr1 hscr1
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  isplitl [H9]; · iexists _; iexact H9
  iintro ⟨H0, H1, H2, H3, H4, H5, H6, H9⟩
  iframe Hrest Ho H0 H1 H2 H3 H4 H5 H6
  iexists _; iexact H9

theorem idle1_6 (t : Fin cfg1.N) : idle1 6 (grid1.coords t) = false := by
  show (!(k1_cond2 (grid1.coords t) == 1#1)) = false
  rw [hcond1_1 t]; rfl

theorem body_obligation1 (c : Dev nD) : BodyObligation (dat1 (F := F) V c) (defs₀ (F := F)) Variants.none () Set.univ := fun t => by
  rw [bigSep_W1, bigSep_W1]
  simp only [idle1_6 t]
  exact sound_body1 V c t

end Cert.Kernel.Hand

end
-- ==== Proof.K.Body2.lean ====
import proofs.«428561_j53893249630457_3_alg».proof.Proof.Gen.Kernel.Launch
import proofs.«428561_j53893249630457_3_alg».proof.Proof.Gen.Kernel.Skeleton
import proofs.«428561_j53893249630457_3_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem hz3 : (![0, 0, 0] : Fin 3 → Nat) = fun _ => 0 := funext fun a => by fin_cases a <;> rfl

theorem off1_zero : ∀ t : Fin cfg2.N, k2_off1 (grid2.coords t) = fun _ => 0 :=
  (by decide +kernel : ∀ t : Fin grid2.N, k2_off1 (grid2.coords t) = fun _ => 0)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) :=
  (by decide +kernel : ∀ t : Fin grid2.N, cond2_0 (grid2.coords t))

theorem hcond2_1 : ∀ t : Fin cfg2.N, k2_cond2 (grid2.coords t) = 1#1 :=
  (by decide +kernel : ∀ t : Fin grid2.N, k2_cond2 (grid2.coords t) = 1#1)

abbrev rx_0 : Rect S2x1024x1024 := Rect.unit (s := S2x1024x1024) ![0, 0, 0] S1x1024x1024.size inb_S2x1024x1024_S1x1024x1024_0_0_0

abbrev rx_1 : Rect S2x1024x1024 := Rect.unit (s := S2x1024x1024) ![1, 0, 0] S1x1024x1024.size inb_S2x1024x1024_S1x1024x1024_1_0_0

abbrev r9w : Rect S2x128x1024 := Rect.unit (s := S2x128x1024) ![0, 0, 0] S2x128x1024.size inb_S2x128x1024_S2x128x1024_0_0_0

abbrev r9_0 : Rect S2x128x1024 := Rect.unit (s := S2x128x1024) ![0, 0, 0] S1x128x1024.size inb_S2x128x1024_S1x128x1024_0_0_0

abbrev r9_1 : Rect S2x128x1024 := Rect.unit (s := S2x128x1024) ![1, 0, 0] S1x128x1024.size inb_S2x128x1024_S1x128x1024_1_0_0

abbrev r8_0 : Rect S2x128x256 := Rect.unit (s := S2x128x256) ![0, 0, 0] S1x128x256.size inb_S2x128x256_S1x128x256_0_0_0

abbrev r8_1 : Rect S2x128x256 := Rect.unit (s := S2x128x256) ![1, 0, 0] S1x128x256.size inb_S2x128x256_S1x128x256_1_0_0

def accZ : Vec F S2x128x1024 .f32 := View.canon [⟨r9w, k2_pay4 (F := F)⟩]

def accB0 (x0 : Vec F S2x1024x1024 .f32) (x1 : Vec F S128x1024 .bf16) : Vec F S1x128x1024 .f32 :=
  k2_pay6 x1 (View.ld x0 rx_0) (View.ld (accZ (F := F)) r9_0)

def accM (x0 : Vec F S2x1024x1024 .f32) (x1 : Vec F S128x1024 .bf16) : Vec F S2x128x1024 .f32 :=
  View.canon [⟨r9_0, accB0 x0 x1⟩, ⟨r9w, k2_pay4 (F := F)⟩]

def accB1 (x0 : Vec F S2x1024x1024 .f32) (x1 : Vec F S128x1024 .bf16) : Vec F S1x128x1024 .f32 :=
  k2_pay7 x1 (View.ld x0 rx_1) (View.ld (accM x0 x1) r9_1)

def acc2 (x0 : Vec F S2x1024x1024 .f32) (x1 : Vec F S128x1024 .bf16) : Vec F S2x128x1024 .f32 :=
  View.canon [⟨r9_1, accB1 x0 x1⟩, ⟨r9_0, accB0 x0 x1⟩, ⟨r9w, k2_pay4 (F := F)⟩]

def outB0 (x0 : Vec F S2x1024x1024 .f32) (x1 : Vec F S128x1024 .bf16) (x2 : Vec F S1024x256 .f32) (x3 : Vec F S1x256 .f32) (x4 : Vec F S256x256 .f32) (x5 : Vec F S1x256 .f32) : Vec F S1x128x256 .f32 :=
  k2_pay2 (View.ld (acc2 x0 x1) r9_0) x2 x3 x4 x5

def outB1 (x0 : Vec F S2x1024x1024 .f32) (x1 : Vec F S128x1024 .bf16) (x2 : Vec F S1024x256 .f32) (x3 : Vec F S1x256 .f32) (x4 : Vec F S256x256 .f32) (x5 : Vec F S1x256 .f32) : Vec F S1x128x256 .f32 :=
  k2_pay1 (k2_pay3 (View.ld (acc2 x0 x1) r9_1)) x2 x3 x4 x5

def out2 (x0 : Vec F S2x1024x1024 .f32) (x1 : Vec F S128x1024 .bf16) (x2 : Vec F S1024x256 .f32) (x3 : Vec F S1x256 .f32) (x4 : Vec F S256x256 .f32) (x5 : Vec F S1x256 .f32) : Vec F S2x128x256 .f32 :=
  View.canon [⟨r8_1, outB1 x0 x1 x2 x3 x4 x5⟩, ⟨r8_0, outB0 x0 x1 x2 x3 x4 x5⟩]

theorem cover9_1 (p4 : r9w.shape.Idx → Elt F .f32) (y : S2x128x1024.Idx) :
    ∃ pc ∈ ([⟨r9w, p4⟩] : List (View.Piece (Elt F) S2x128x1024 .f32)), y ∈ pc.1.set :=
  ⟨_, List.mem_singleton_self _, View.mem_set_unit_zero hz3 inb_S2x128x1024_S2x128x1024_0_0_0 y⟩

theorem cover9_2 (p6 : r9_0.shape.Idx → Elt F .f32) (p4 : r9w.shape.Idx → Elt F .f32) (y : S2x128x1024.Idx) :
    ∃ pc ∈ ([⟨r9_0, p6⟩, ⟨r9w, p4⟩] : List (View.Piece (Elt F) S2x128x1024 .f32)), y ∈ pc.1.set :=
  ⟨⟨r9w, p4⟩, by simp, View.mem_set_unit_zero hz3 inb_S2x128x1024_S2x128x1024_0_0_0 y⟩

theorem cover9_3 (p7 : r9_1.shape.Idx → Elt F .f32) (p6 : r9_0.shape.Idx → Elt F .f32) (p4 : r9w.shape.Idx → Elt F .f32) (y : S2x128x1024.Idx) :
    ∃ pc ∈ ([⟨r9_1, p7⟩, ⟨r9_0, p6⟩, ⟨r9w, p4⟩] : List (View.Piece (Elt F) S2x128x1024 .f32)), y ∈ pc.1.set :=
  ⟨⟨r9w, p4⟩, by simp, View.mem_set_unit_zero hz3 inb_S2x128x1024_S2x128x1024_0_0_0 y⟩

theorem cover8 (p1 : r8_1.shape.Idx → Elt F .f32) (p0 : r8_0.shape.Idx → Elt F .f32) (y : S2x128x256.Idx) :
    ∃ pc ∈ ([⟨r8_1, p1⟩, ⟨r8_0, p0⟩] : List (View.Piece (Elt F) S2x128x256 .f32)), y ∈ pc.1.set :=
  View.cover_of_tiled [⟨r8_1, p1⟩, ⟨r8_0, p0⟩] S1x128x256.size (by rfl) y

theorem sound_kernel2 (c : Dev nD) (E : Set ℕ) (t : Fin cfg2.N)
    (arg2 : Memref sig .tc .vmem S2x1024x1024 .f32) (harg2 : arg2.IsWhole) (arg3 : Memref sig .tc .vmem S128x1024 .bf16) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2x128x256 .f32) (harg8 : arg8.IsWhole) (arg9 : Memref sig .tc .vmem S2x128x1024 .f32) (harg9 : arg9.IsWhole)
    (x0 : Vec F S2x1024x1024 .f32) (x1 : Vec F S128x1024 .bf16) (x2 : Vec F S1024x256 .f32) (x3 : Vec F S1x256 .f32) (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out2 x0 x1 x2 x3 x4 x5) ∗ owns (c : Thread nD τ) arg9 fullShare (acc2 x0 x1)) -∗ K ⟨⟩))
      ⊢ wp frame (wpE (defs₀ (F := F)) Variants.none c none) E (cc2_kernel (grid2.coords t) arg2 harg2 arg3 harg3 arg4 harg4 arg5 harg5 arg6 harg6 arg7 harg7 arg8 harg8 arg9 harg9) K := by
  have hc0 := hcond2_0 t
  have hc1 := hcond2_1 t
  simp only [cc2_kernel_eq_skeleton]; unfold cc2_kernel_skel
  simp only [k2_part2_eq_skeleton, k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover8 _ _)]
    rw [View.readCov_eq_canon_ld _ _ _ (cover9_1 _)]
    rw [View.readCov_eq_canon_ld _ _ _ (cover9_2 _ _)]
    rw [View.readCov_eq_canon_ld _ _ _ (cover9_3 _ _ _)]
    rw [View.readCov_eq_canon_ld _ _ _ (cover9_3 _ _ _)]
    simp only [View.readAt_eq_ld, View.ld_unit_zero (S := S128x1024) (off1_zero t), View.ld_unit_zero (S := S1024x256) hz2,
      View.ld_unit_zero (S := S1x256) hz2, View.ld_unit_zero (S := S256x256) hz2]
    rfl
  iexists _; isplitr
  swap; · iexact H7
  ipureintro
  sl_unfold_run_names
  rw [View.read_writes_eq_canon _ _ _ (cover9_3 _ _ _)]
  rw [View.readCov_eq_canon_ld _ _ _ (cover9_1 _)]
  rw [View.readCov_eq_canon_ld _ _ _ (cover9_2 _ _)]
  simp only [View.readAt_eq_ld, View.ld_unit_zero (S := S128x1024) (off1_zero t)]
  rfl

end Cert.Kernel.Hand

end
-- ==== Proof.K.Data2.lean ====
import proofs.«428561_j53893249630457_3_alg».proof.Proof.K.Body2
import Idealize.ShloMosaic.Lib.Pipeline.FrameBody
import Idealize.ShloMosaic.Lib.Ring
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2 (t : Fin cfg2.N) (w : Fin cfg2.W) := (cfg2.win w).stage (cfg2.slots t w)

abbrev scr2 : Memref sig .tc .vmem S2x128x1024 .f32 := Memref.whole cc2_scratch0

abbrev hscr2 : (scr2).IsWhole := Memref.isWhole_whole _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := iprop((∃ d : Vec F S2x128x1024 .f32, owns (c : Thread nD τ) (Memref.whole cc2_scratch0 : Memref sig .tc .vmem S2x128x1024 .f32) fullShare d)
    ∗ Pipeline.scopedRestBut (Ix := Unit) (Name := ℕ) (U := UR sig nD τ) (Lvl := ℕ) (Val := Elt F) spec2 c [cc2_scratch0] ∗ ∃ r, prngReg c r)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by
  dsimp only [dat2]

theorem Φ_eq2 (c : Dev nD) (k : Fin (cfg2.N + 1)) : (dat2 V c).Φ k = iprop((∃ d : Vec F S2x128x1024 .f32, owns (c : Thread nD τ) (Memref.whole cc2_scratch0 : Memref sig .tc .vmem S2x128x1024 .f32) fullShare d)
    ∗ Pipeline.scopedRestBut (Ix := Unit) (Name := ℕ) (U := UR sig nD τ) (Lvl := ℕ) (Val := Elt F) spec2 c [cc2_scratch0] ∗ ∃ r, prngReg c r) := rfl

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> exact fun d =>
    ((dat2 V c).before_in_eq_fetched _ rfl (fun _ => rfl) (fun _ _ _ => rfl) (fun _ => rfl) t d).trans rfl

def bodyPre2 (c : Dev nD) (t : Fin cfg2.N) : sProp 𝕄 :=
  let P (w : Fin cfg2.W) : sProp 𝕄 := iprop(∃ d, owns (c : Thread nD τ) (ms2 t w) fullShare ((dat2 V c).before w t d))
  iprop((dat2 V c).Φ t.castSucc ∗ (dat2 V c).owesAt () t.castSucc ∗ P 0 ∗ P 1 ∗ P 2 ∗ P 3 ∗ P 4 ∗ P 5 ∗ P 6)

def bodyPost2 (c : Dev nD) (t : Fin cfg2.N) : sProp 𝕄 :=
  let Q (w : Fin cfg2.W) (x : (cfg2.win w).block.Idx → Elt F (cfg2.win w).elt) : sProp 𝕄 := owns (c : Thread nD τ) (ms2 t w) fullShare x
  iprop((dat2 V c).Φ t.succ ∗ (dat2 V c).owesAt () t.castSucc ∗ Q 0 (iblk2 V c 0 t) ∗ Q 1 (iblk2 V c 1 t) ∗ Q 2 (iblk2 V c 2 t)
    ∗ Q 3 (iblk2 V c 3 t) ∗ Q 4 (iblk2 V c 4 t) ∗ Q 5 (iblk2 V c 5 t) ∗ Q 6 ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5⟩ := before2 V c t
  simp only [b0, b1, b2, b3, b4, b5]
  rw [after2_6, Φ_eq2, Φ_eq2]
  iintro ⟨⟨⟨%d9, H9⟩, Hrest⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ t (ms2 t 0) (stage_whole2 0 _) (ms2 t 1) (stage_whole2 1 _) (ms2 t 2) (stage_whole2 2 _) (ms2 t 3) (stage_whole2 3 _) (ms2 t 4) (stage_whole2 4 _) (ms2 t 5) (stage_whole2 5 _) (ms2 t 6) (stage_whole2 6 _) scr2 hscr2
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H9]; · iexists _; iexact H9
  iintro ⟨H0, H1, H2, H3, H4, H5, H6, H9⟩
  iframe Hrest Ho H0 H1 H2 H3 H4 H5 H6
  iexists _; iexact H9

theorem idle2_6 (t : Fin cfg2.N) : idle2 6 (grid2.coords t) = false := by
  show (!(k2_cond2 (grid2.coords t) == 1#1)) = false
  rw [hcond2_1 t]; rfl

theorem body_obligation2 (c : Dev nD) : BodyObligation (dat2 (F := F) V c) (defs₀ (F := F)) Variants.none () Set.univ := fun t => by
  rw [bigSep_W2, bigSep_W2]
  simp only [idle2_6 t]
  exact sound_body2 V c t

end Cert.Kernel.Hand

end
-- ==== Proof.K.PData.lean ====
import proofs.«428561_j53893249630457_3_alg».proof.Proof.K.Data0
import proofs.«428561_j53893249630457_3_alg».proof.Proof.K.Data1
import proofs.«428561_j53893249630457_3_alg».proof.Proof.K.Data2
import proofs.«428561_j53893249630457_3_alg».proof.Proof.Gen.Kernel.Regions

noncomputable section

namespace Cert.Kernel.Hand

open Cert.Kernel.Gen
open Idealize.ShloMosaic Idealize.ShloMosaic.TcCoe
open Idealize.SL.BI
open Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev entry0 (c : Dev nD) (b : Ref sig .tc) : Buf (Elt F) ((c : Thread nD τ).loc b) := V1 m c b

def res0 (c : Dev nD) : Buf (Elt F) ((c : Thread nD τ).loc main_v10) := (dat0 (entry0 m) c).arrAt 6 cfg0.N

def outsA : Outs (F := F) := fun _ r c => if h : r = main_v10 then h ▸ res0 m c else m ((c : Thread nD τ).loc r)

abbrev entry1 (c : Dev nD) (b : Ref sig .tc) : Buf (Elt F) ((c : Thread nD τ).loc b) := V3 m (outsA m) c b

def res1 (c : Dev nD) : Buf (Elt F) ((c : Thread nD τ).loc main_v21) := (dat1 (entry1 m) c).arrAt 6 cfg1.N

def outsB : Outs (F := F) := fun _ r c =>
  if h : r = main_v10 then h ▸ res0 m c else if h : r = main_v21 then h ▸ res1 m c else m ((c : Thread nD τ).loc r)

abbrev entry2 (c : Dev nD) (b : Ref sig .tc) : Buf (Elt F) ((c : Thread nD τ).loc b) := V5 m (outsB m) c b

def res2 (c : Dev nD) : Buf (Elt F) ((c : Thread nD τ).loc main_v32) := (dat2 (entry2 m) c).arrAt 6 cfg2.N

def outs : Outs (F := F) := fun _ r c =>
  if h : r = main_v10 then h ▸ res0 m c else if h : r = main_v21 then h ▸ res1 m c
  else if h : r = main_v32 then h ▸ res2 m c else m ((c : Thread nD τ).loc r)

theorem outsA_v10 (J : ℕ) (c : Dev nD) : outsA m J main_v10 c = res0 m c := by unfold outsA; rw [dif_pos rfl]

theorem outsB_v10 (J : ℕ) (c : Dev nD) : outsB m J main_v10 c = res0 m c := by unfold outsB; rw [dif_pos rfl]

theorem outsB_v21 (J : ℕ) (c : Dev nD) : outsB m J main_v21 c = res1 m c := by
  unfold outsB; rw [dif_neg (by decide), dif_pos rfl]

theorem outs_v10 (J : ℕ) (c : Dev nD) : outs m J main_v10 c = res0 m c := by unfold outs; rw [dif_pos rfl]

theorem outs_v21 (J : ℕ) (c : Dev nD) : outs m J main_v21 c = res1 m c := by
  unfold outs; rw [dif_neg (by decide), dif_pos rfl]

theorem outs_v32 (J : ℕ) (c : Dev nD) : outs m J main_v32 c = res2 m c := by
  unfold outs; rw [dif_neg (by decide), dif_neg (by decide), dif_pos rfl]

theorem V3_outs (c : Dev nD) : V3 m (outs m) c = V3 m (outsA m) c := by
  show StableHlo.after hostOps1 (Function.update (V1 m c) main_v10 (outs m 2 main_v10 c))
    = StableHlo.after hostOps1 (Function.update (V1 m c) main_v10 (outsA m 2 main_v10 c))
  rw [outs_v10, outsA_v10]

theorem V5_outs (c : Dev nD) : V5 m (outs m) c = V5 m (outsB m) c := by
  show StableHlo.after hostOps2 (Function.update (StableHlo.after hostOps1 (Function.update (V1 m c) main_v10 (outs m 2 main_v10 c))) main_v21 (outs m 4 main_v21 c))
    = StableHlo.after hostOps2 (Function.update (StableHlo.after hostOps1 (Function.update (V1 m c) main_v10 (outsB m 2 main_v10 c))) main_v21 (outsB m 4 main_v21 c))
  rw [outs_v10, outs_v21, outsB_v10, outsB_v21]

def pdats : (p : Fin 3) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.K.RegLib.lean ====
import proofs.«428561_j53893249630457_3_alg».proof.Proof.K.PData
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.BI.Laws Idealize.SL.ProofMode
open scoped Idealize.SL.BI
open Idealize.ShloMosaic.Pipeline (Dat Cfg)

variable {F : FTy → Type} [FloatOps F]

local notation "𝕄" => MT nD τ sig Unit (Elt F) ℕ (UR sig nD τ) ℕ

/-- A whole buffer held at some contents is the buffer's location holding some contents, -/
theorem pt_owns (c : Dev nD) (b : Ref sig .tc) :
    iprop(∃ f : Buf (Elt F) ((c.tc : Thread nD τ).loc b), ((c.tc : Thread nD τ).loc b) ↦{fullShare} f)
      ⊢ (iprop(∃ d : b.ty.Contents (Elt F), owns (c : Thread nD τ) (Memref.whole b) fullShare d) : sProp 𝕄) := by
  iintro ⟨%f, Hs⟩
  iexists f
  rw [owns_whole_eq]; iexists f; isplitr; · ipureintro; rfl
  iexact Hs

/-- and back. -/
theorem owns_pt (c : Dev nD) (b : Ref sig .tc) :
    (iprop(∃ d : b.ty.Contents (Elt F), owns (c : Thread nD τ) (Memref.whole b) fullShare d) : sProp 𝕄)
      ⊢ iprop(∃ f : Buf (Elt F) ((c.tc : Thread nD τ).loc b), ((c.tc : Thread nD τ).loc b) ↦{fullShare} f) := by
  refine exists_elim fun d => ?_
  rw [owns_whole_eq]; iintro ⟨%f, -, H⟩; iexists f; iexact H

section
variable {cfg : Cfg sig Λ₀} {c : Dev nD} (D : Dat τ (Elt F) Unit ℕ (UR sig nD τ) ℕ cfg c) (t : Fin (cfg.N + 1))

/-- With nothing owed and every pair recorded, the bare tallies are the data's at any point, -/
theorem owes_in (h0 : D.owed t = 0) (hr : ∀ x, x ∈ D.recorded t) :
    iprop(∃ W, owes (c : Thread nD τ) (0 : CellTallies nD τ sig Unit) W) ⊢ (D.owesAt () t : sProp 𝕄) := by
  unfold Pipeline.Dat.owesAt Pipeline.owesWithin
  rw [h0]
  iintro ⟨%W, HO⟩; iexists W; isplitr; · ipureintro; exact fun x _ => Or.inl (hr x)
  iexact HO

/-- and back. -/
theorem owes_out (h0 : D.owed t = 0) :
    (D.owesAt () t : sProp 𝕄) ⊢ iprop(∃ W, owes (c : Thread nD τ) (0 : CellTallies nD τ sig Unit) W) := by
  unfold Pipeline.Dat.owesAt Pipeline.owesWithin
  rw [h0]
  iintro ⟨%W, -, HO⟩; iexists W; iexact HO
end

/-- Every region's list of tables is empty, so holding the tables is holding nothing. -/
theorem prefHeld_none (p : Fin 3) (c : Dev nD) :
    (BI.emp : sProp 𝕄) ⊢ Pipeline.prefHeld (pcfgs (F := F) p).pre c (fun _ => fullShare) (adm p).1 := by
  fin_cases p <;>
    (unfold Pipeline.prefHeld; rw [show (Finset.univ : Finset (Fin 0)) = ∅ from rfl, BI.bigSep_empty])

/-- ENTRY: the held buffers split into the arrays and the rest; the register and the tallies come out of R. -/
theorem entry_gen (c : Dev nD) {H A PH OW Zc : sProp 𝕄} (hsplit : H ⊢ iprop(A ∗ Zc)) (hpf : (BI.emp : sProp 𝕄) ⊢ PH)
    (how : iprop(∃ W, owes (c : Thread nD τ) (0 : CellTallies nD τ sig Unit) W) ⊢ OW) :
    iprop(iprop(H ∗ R (F := F) c) ∗ Pipeline.ownSems0 (fun k : PEmpty => k.elim) c ∗ levAts L lv)
      ⊢ |={Set.univ}=> iprop(A ∗ PH ∗ OW ∗ (∃ r, prngReg c r) ∗ Zc) := by
  rw [Pipeline.ownSems0_none]
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

/-- The invariant at the first point, from the listed buffer, the other scoped buffers and X. -/
theorem hin_gen {Φ SR SB S0 PT X PH : sProp 𝕄} (hΦ : Φ = iprop(S0 ∗ SB ∗ X)) (hSR : SR = iprop(PT ∗ SB)) (hs : PT ⊢ S0) : iprop(X ∗ PH ∗ SR) ⊢ Φ := by
  rw [hΦ, hSR]
  iintro ⟨Hp, -, Hs, Hr⟩
  isplitl [Hs]; · iapply hs; iexact Hs
  isplitl [Hr]; · iexact Hr
  iexact Hp

/-- The invariant at the last point gives them back. -/
theorem hout_gen (c : Dev nD) {Φ SR SB S0 PT X : sProp 𝕄} (hΦ : Φ = iprop(S0 ∗ SB ∗ X)) (hSR : SR = iprop(PT ∗ SB)) (hs : S0 ⊢ PT) :
    Φ ⊢ iprop(X ∗ Pipeline.ownSems0 (fun k : PEmpty => k.elim) c ∗ SR) := by
  rw [hΦ, hSR, Pipeline.ownSems0_none]
  iintro ⟨Hs, Hr, Hp⟩
  isplitl [Hp]; · iexact Hp
  isplitr; · iempintro
  isplitl [Hs]; · iapply hs; iexact Hs
  iexact Hr

/-- EXIT: the arrays and the rest join into the held buffers; the register and the tallies go back into R. -/
theorem exit_gen (c : Dev nD) {H' A OW Zc : sProp 𝕄} (hjoin : iprop(A ∗ Zc) ⊢ H')
    (how : OW ⊢ iprop(∃ W, owes (c : Thread nD τ) (0 : CellTallies nD τ sig Unit) W)) :
    iprop(A ∗ OW ∗ (∃ r, prngReg c r) ∗ Zc) ⊢ |={Set.univ}=> iprop(H' ∗ R (F := F) c) := by
  iintro ⟨Ha, HO, HY, Hrest⟩
  imodintro
  isplitl [Ha Hrest]
  · iapply hjoin; isplitl [Ha] <;> iassumption
  isplitl [HY]; · iexact HY
  iapply how; iexact HO

/-- Region 0's accumulator invariant at the first point: its side condition speaks of odd points only, -/
theorem pt_scratch0 (m : (ℓ : Loc nD τ sig) → Buf (Elt F) ℓ) (c : Dev nD) :
    iprop(∃ f : Buf (Elt F) ((c.tc : Thread nD τ).loc cc0_scratch0), ((c.tc : Thread nD τ).loc cc0_scratch0) ↦{fullShare} f)
      ⊢ (scratchAt0 (entry0 m) c 0 : sProp 𝕄) := by
  unfold scratchAt0
  iintro H
  ihave H2 := pt_owns c cc0_scratch0 $$ H
  icases H2 with ⟨%d, Hd⟩; iexists d; isplitr; · ipureintro; intro h; omega
  iexact Hd

/-- and at any point it is the buffer at some contents. -/
theorem scratch0_pt (m : (ℓ : Loc nD τ sig) → Buf (Elt F) ℓ) (c : Dev nD) (k : ℕ) :
    (scratchAt0 (entry0 m) c k : sProp 𝕄)
      ⊢ iprop(∃ f : Buf (Elt F) ((c.tc : Thread nD τ).loc cc0_scratch0), ((c.tc : Thread nD τ).loc cc0_scratch0) ↦{fullShare} f) := by
  unfold scratchAt0
  iintro ⟨%d, -, Hs⟩; iapply owns_pt c cc0_scratch0; iexists d; iexact Hs

end Cert.Kernel.Hand

end
-- ==== Proof.K.Reg0.lean ====
import proofs.«428561_j53893249630457_3_alg».proof.Proof.K.RegLib

noncomputable section

namespace Cert.Kernel.Hand

open Cert.Kernel Cert.Kernel.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit0 (c : Dev nD) (b : Ref sig .tc) : Buf (Elt F) ((c : Thread nD τ).loc b) := V2 m (outs m) c b

theorem final0 (c : Dev nD) (w : Fin cfg0.W) : (pdats m 0 c).arrAt w cfg0.N = exit0 m c (Pipeline.arrRef spec0 w) := by
  have hin : ∀ w : Fin cfg0.W, Pipeline.arrRef spec0 w ∉ ([main_v10] : List (Ref sig .tc)) → (cfg0.win w).isOut = false →
      (pdats m 0 c).arrAt w cfg0.N = exit0 m c (Pipeline.arrRef spec0 w) := fun w hne hw =>
    ((pdats m 0 c).arrAt_in w hw _).trans (V2_of m (outs m) c _ hne).symm
  fin_cases w <;> first
    | exact hin _ (by decide) rfl
    | (show res0 m c = Function.update (V1 m c) (Proc.devRef .tc main_v10) (outs m 2 main_v10 c) (Proc.devRef .tc main_v10)
       rw [Function.update_self, outs_v10])

theorem rest0 (c : Dev nD) : ∀ b, b ∉ Finset.univ.image (Pipeline.arrRef spec0) → exit0 m c b = entry0 m c b :=
  fun b hb => V2_of m (outs m) c b fun h => hb (by
    have : b = main_v10 := by simpa using h
    subst this; exact Finset.mem_image.mpr ⟨6, Finset.mem_univ _, rfl⟩)

def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    exact entry_gen c hsplit (prefHeld_none 0 c) (owes_in (pdats m 0 c) 0 rfl fun _ => trivial)
  hin c := hin_gen (S0 := scratchAt0 (entry0 m) c 0) rfl (Pipeline.scopedRest_split_of_list spec0 c [cc0_scratch0] (by decide) (by decide)) (pt_scratch0 m c)
  hout c := hout_gen c (S0 := scratchAt0 (entry0 m) c _) rfl (Pipeline.scopedRest_split_of_list spec0 c [cc0_scratch0] (by decide) (by decide)) (scratch0_pt m c _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (final0 m c) (rest0 m c)
    rw [Pipeline.unscopedBufs_held] at hjoin
    exact exit_gen c hjoin (owes_out (pdats m 0 c) _ rfl)

end Cert.Kernel.Hand

end
-- ==== Proof.K.Reg1.lean ====
import proofs.«428561_j53893249630457_3_alg».proof.Proof.K.RegLib

noncomputable section

namespace Cert.Kernel.Hand

open Cert.Kernel Cert.Kernel.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit1 (c : Dev nD) (b : Ref sig .tc) : Buf (Elt F) ((c : Thread nD τ).loc b) := V4 m (outs m) c b

theorem entry1_eq (c : Dev nD) (b : Ref sig .tc) : entry1 m c b = V3 m (outs m) c b := by
  show V3 m (outsA m) c b = V3 m (outs m) c b
  rw [V3_outs]

theorem final1 (c : Dev nD) (w : Fin cfg1.W) : (pdats m 1 c).arrAt w cfg1.N = exit1 m c (Pipeline.arrRef spec1 w) := by
  have hin : ∀ w : Fin cfg1.W, Pipeline.arrRef spec1 w ∉ ([main_v21] : List (Ref sig .tc)) → (cfg1.win w).isOut = false →
      (pdats m 1 c).arrAt w cfg1.N = exit1 m c (Pipeline.arrRef spec1 w) := fun w hne hw => by
    rw [(pdats m 1 c).arrAt_in w hw cfg1.N, show (pdats m 1 c).A w = _ from A_eq1 (entry1 m) c w]
    exact (entry1_eq m c _).trans (V4_of m (outs m) c _ hne).symm
  fin_cases w <;> first
    | exact hin _ (by decide) rfl
    | (show res1 m c = Function.update (V3 m (outs m) c) (Proc.devRef .tc main_v21) (outs m 4 main_v21 c) (Proc.devRef .tc main_v21)
       rw [Function.update_self, outs_v21])

theorem rest1 (c : Dev nD) : ∀ b, b ∉ Finset.univ.image (Pipeline.arrRef spec1) → exit1 m c b = entry1 m c b :=
  fun b hb => (V4_of m (outs m) c b fun h => hb (by
    have : b = main_v21 := by simpa using h
    subst this; exact Finset.mem_image.mpr ⟨6, Finset.mem_univ _, rfl⟩)).trans (entry1_eq m c b).symm

def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [V3_outs]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    exact entry_gen c hsplit (prefHeld_none 1 c) (owes_in (pdats m 1 c) 0 rfl fun _ => trivial)
  hin c := hin_gen (Φ_eq1 (entry1 m) c 0) (Pipeline.scopedRest_split_of_list spec1 c [cc1_scratch0] (by decide) (by decide)) (pt_owns c cc1_scratch0)
  hout c := hout_gen c (Φ_eq1 (entry1 m) c _) (Pipeline.scopedRest_split_of_list spec1 c [cc1_scratch0] (by decide) (by decide)) (owns_pt c cc1_scratch0)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (final1 m c) (rest1 m c)
    rw [Pipeline.unscopedBufs_held] at hjoin
    exact exit_gen c hjoin (owes_out (pdats m 1 c) _ rfl)

end Cert.Kernel.Hand

end
-- ==== Proof.K.Reg2.lean ====
import proofs.«428561_j53893249630457_3_alg».proof.Proof.K.RegLib

noncomputable section

namespace Cert.Kernel.Hand

open Cert.Kernel Cert.Kernel.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit2 (c : Dev nD) (b : Ref sig .tc) : Buf (Elt F) ((c : Thread nD τ).loc b) := V6 m (outs m) c b

theorem entry2_eq (c : Dev nD) (b : Ref sig .tc) : entry2 m c b = V5 m (outs m) c b := by
  show V5 m (outsB m) c b = V5 m (outs m) c b
  rw [V5_outs]

theorem final2 (c : Dev nD) (w : Fin cfg2.W) : (pdats m 2 c).arrAt w cfg2.N = exit2 m c (Pipeline.arrRef spec2 w) := by
  have hin : ∀ w : Fin cfg2.W, Pipeline.arrRef spec2 w ∉ ([main_v32] : List (Ref sig .tc)) → (cfg2.win w).isOut = false →
      (pdats m 2 c).arrAt w cfg2.N = exit2 m c (Pipeline.arrRef spec2 w) := fun w hne hw => by
    rw [(pdats m 2 c).arrAt_in w hw cfg2.N, show (pdats m 2 c).A w = _ from A_eq2 (entry2 m) c w]
    exact (entry2_eq m c _).trans (V6_of m (outs m) c _ hne).symm
  fin_cases w <;> first
    | exact hin _ (by decide) rfl
    | (show res2 m c = Function.update (V5 m (outs m) c) (Proc.devRef .tc main_v32) (outs m 6 main_v32 c) (Proc.devRef .tc main_v32)
       rw [Function.update_self, outs_v32])

theorem rest2 (c : Dev nD) : ∀ b, b ∉ Finset.univ.image (Pipeline.arrRef spec2) → exit2 m c b = entry2 m c b :=
  fun b hb => (V6_of m (outs m) c b fun h => hb (by
    have : b = main_v32 := by simpa using h
    subst this; exact Finset.mem_image.mpr ⟨6, Finset.mem_univ _, rfl⟩)).trans (entry2_eq m c b).symm

def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [V5_outs]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    exact entry_gen c hsplit (prefHeld_none 2 c) (owes_in (pdats m 2 c) 0 rfl fun _ => trivial)
  hin c := hin_gen (Φ_eq2 (entry2 m) c 0) (Pipeline.scopedRest_split_of_list spec2 c [cc2_scratch0] (by decide) (by decide)) (pt_owns c cc2_scratch0)
  hout c := hout_gen c (Φ_eq2 (entry2 m) c _) (Pipeline.scopedRest_split_of_list spec2 c [cc2_scratch0] (by decide) (by decide)) (owns_pt c cc2_scratch0)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (final2 m c) (rest2 m c)
    rw [Pipeline.unscopedBufs_held] at hjoin
    exact exit_gen c hjoin (owes_out (pdats m 2 c) _ rfl)

end Cert.Kernel.Hand

end
-- ==== Proof.K.Run.lean ====
import proofs.«428561_j53893249630457_3_alg».proof.Proof.K.Reg0
import proofs.«428561_j53893249630457_3_alg».proof.Proof.K.Reg1
import proofs.«428561_j53893249630457_3_alg».proof.Proof.K.Reg2

noncomputable section

namespace Cert.Kernel.Hand

open Cert.Kernel.Gen Idealize.ShloMosaic Idealize.ShloMosaic.TcCoe Idealize.SL Idealize.SL.RA Idealize.SL.BI Idealize.SL.BI.BIBase Idealize.SL.BI.Laws Idealize.SL.Sem Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev launchElt : UR sig nD τ := initOf (Pipeline.cells cfgs cellOf_inj) (Pipeline.launchToks cfgs cellOf_inj)

theorem launchElt_own : (ownU launchElt : sProp 𝕄)
    ⊢ |={Set.univ}=> iprop(BI.own ((emb₁ : Emb (UR sig nD τ) 𝕄) launchElt) ∗ bigSep Finset.univ fun _ : Dev nD => (BI.emp : sProp 𝕄)) := by
  iintro Hu; imodintro
  isplitl [Hu]
  · iapply (show (ownU launchElt : sProp 𝕄) ⊢ BI.own ((emb₁ : Emb (UR sig nD τ) 𝕄) launchElt) from .rfl)
    iexact Hu
  iapply (show (BI.emp : sProp 𝕄) ⊢ bigSep Finset.univ (fun _ : Dev nD => (BI.emp : sProp 𝕄)) from by rw [BI.bigSep_emp_const])
  iempintro

-- How a run ends at a core: the stacked result at the last valuation, every argument array as launched.
abbrev ended (c : Dev nD) (s : MemSt nD τ sig (Elt F)) : Prop :=
  s.mem ((c.tc : Thread nD τ).loc main_v36) = V7 m (outs m) c main_v36
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)

-- The launch: four host stretches with the three regions between them, each region entered from and left at the valuations of PData.
theorem run_of : θ_run defs (onTc (τ := τ) (main (F := F))) ⟨m, fun _ => 0, ρ⟩ (fun r => ∀ c : Dev nD, ended m c r.2) := by
  refine Pipeline.θ_run_regions_kit_dev (pcfgs (F := F)) adm (pdats m) () cellOf_inj (emb₁ : Emb (UR sig nD τ) 𝕄) defs₀ Variants.none L lv m ρ main
    (segs m (outs m) Variants.none L lv (fun _ c => R c) () (pdats m) (reg0 m) (reg1 m) (reg2 m))
    (fun c Q => by
      rewrite [main_chain c, Pipeline.Seg.run_eq_chain,
        show (segs m (outs m) Variants.none L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (fun _ => 0) (fun _ _ => rfl) (fun _ => (BI.emp : sProp 𝕄)) launchElt launchElt_own
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (by iintro ⟨-, HO⟩; iexact HO)⟩)
    (hinit := ?_) (QY := ended m)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      have hr := fun (b : Ref sig .tc) hb => h (Proc.devRef .tc b) (Finset.mem_filter.mpr ⟨StableHlo.devRef_mem_tcRefs b, hb⟩)
      exact ⟨hr main_v36 (by decide),
        (hr main_arg0 (by decide)).trans (V7_main_arg0 m (outs m) c),
        (hr main_arg1 (by decide)).trans (V7_main_arg1 m (outs m) c),
        (hr main_arg2 (by decide)).trans (V7_main_arg2 m (outs m) c),
        (hr main_arg3 (by decide)).trans (V7_main_arg3 m (outs m) c),
        (hr main_arg4 (by decide)).trans (V7_main_arg4 m (outs m) c),
        (hr main_arg5 (by decide)).trans (V7_main_arg5 m (outs m) c),
        (hr main_arg6 (by decide)).trans (V7_main_arg6 m (outs m) c),
        (hr main_arg7 (by decide)).trans (V7_main_arg7 m (outs m) c),
        (hr main_arg8 (by decide)).trans (V7_main_arg8 m (outs m) c),
        (hr main_arg9 (by decide)).trans (V7_main_arg9 m (outs m) c),
        (hr main_arg10 (by decide)).trans (V7_main_arg10 m (outs m) c),
        (hr main_arg11 (by decide)).trans (V7_main_arg11 m (outs m) c),
        (hr main_arg12 (by decide)).trans (V7_main_arg12 m (outs m) c),
        (hr main_arg13 (by decide)).trans (V7_main_arg13 m (outs m) c),
        (hr main_arg14 (by decide)).trans (V7_main_arg14 m (outs m) c),
        (hr main_arg15 (by decide)).trans (V7_main_arg15 m (outs m) c),
        (hr main_arg16 (by decide)).trans (V7_main_arg16 m (outs m) c),
        (hr main_arg17 (by decide)).trans (V7_main_arg17 m (outs m) c)⟩
    · iexact HSI

end Cert.Kernel.Hand

end
-- ==== Proof.KI.Body0.lean ====
import proofs.«428561_j53893249630457_3_alg».proof.Proof.Gen.KernelIdeal.Launch
import proofs.«428561_j53893249630457_3_alg».proof.Proof.Gen.KernelIdeal.Skeleton
import proofs.«428561_j53893249630457_3_alg».proof.Proof.Gen.KernelIdeal.Points
import Idealize.ShloMosaic.Lib.Pipeline.FrameBody
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev clears0 (i : grid0.Coords) : Prop :=
  (Scalar.cmpi .ne (Scalar.extui (Scalar.cmpi .eq (BitVec.ofNat 32 (i 1).val) 0#32)) 0#32) = 1#1

abbrev emits0 (i : grid0.Coords) : Prop := k0_cond2 i = 1#1

theorem clears0_iff : ∀ t : Fin cfg0.N, clears0 (grid0.coords t) ↔ t.val % 2 = 0 :=
  (by decide +kernel : ∀ t : Fin grid0.N, clears0 (grid0.coords t) ↔ t.val % 2 = 0)

theorem emits0_iff : ∀ t : Fin cfg0.N, emits0 (grid0.coords t) ↔ t.val % 2 = 1 :=
  (by decide +kernel : ∀ t : Fin grid0.N, emits0 (grid0.coords t) ↔ t.val % 2 = 1)

noncomputable def firstHalf0 (c : Dev nD) (i : grid0.Coords)
    (arg2 : Memref sig .tc .vmem S1x256x8192 .f32) (harg2 : arg2.IsWhole) (arg3 : Memref sig .tc .vmem S128x16384 .bf16) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1x128x256 .f32) (harg8 : arg8.IsWhole) (arg9 : Memref sig .tc .vmem S1x128x256 .f32) (harg9 : arg9.IsWhole)
    (hz : clears0 i) (he : ¬ emits0 i)
    (x0 : Vec F S1x256x8192 .f32) (x1 : Vec F S128x16384 .bf16) :
    { LS : List (View.Piece (Elt F) S1x128x256 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1
                ∗ (∃ f, arg9.view.loc (c : Thread nD τ) ↦[arg9.view.set]{fullShare} arg9.view.writes (Elt F) f LS)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d9, %f9, -, H9⟩, Hk⟩
    obtain rfl := harg2.eq_unread hf0; obtain rfl := harg3.eq_unread hf1
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    iexists _; iexact H9

noncomputable def lastHalf0 (c : Dev nD) (i : grid0.Coords)
    (arg2 : Memref sig .tc .vmem S1x256x8192 .f32) (harg2 : arg2.IsWhole) (arg3 : Memref sig .tc .vmem S128x16384 .bf16) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S256x256 .f32) (harg6 : arg6.IsWhole) (arg7 : Memref sig .tc .vmem S1x256 .f32) (harg7 : arg7.IsWhole)
    (arg8 : Memref sig .tc .vmem S1x128x256 .f32) (harg8 : arg8.IsWhole) (arg9 : Memref sig .tc .vmem S1x128x256 .f32) (harg9 : arg9.IsWhole)
    (hz : ¬ clears0 i) (he : emits0 i)
    (x0 : Vec F S1x256x8192 .f32) (x1 : Vec F S128x16384 .bf16) (x2 : Vec F S256x256 .f32) (x3 : Vec F S1x256 .f32)
    (x4 : Vec F S256x256 .f32) (x5 : Vec F S1x256 .f32) (s : Vec F S1x128x256 .f32) :
    { L : List (View.Piece (Elt F) S1x128x256 .f32) × List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare s
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E
              (cc0_kernel i arg2 harg2 arg3 harg3 arg4 harg4 arg5 harg5 arg6 harg6 arg7 harg7 arg8 harg8 arg9 harg9) K } := by
  refine ⟨⟨?_, ?_⟩, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hf9
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; iexact H8
    iexists _; iexact H9

end Cert.KernelIdeal.Hand

end
-- ==== Proof.KI.Data0.lean ====
import proofs.«428561_j53893249630457_3_alg».proof.Proof.KI.Body0
import Idealize.ShloMosaic.Lib.Pipeline.FrameBody
import Idealize.ShloMosaic.Lib.Ring
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S1x256x8192 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S128x16384 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S256x256 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1x256 .f32 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S256x256 .f32 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x256 .f32 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x128x256 .f32 := win0_6.stage (cfg0.slots t 6)

abbrev hs0_6 (t : Fin cfg0.N) : (ms0_6 t).IsWhole := hstage0_6 ((cfg0.slots t 6).cast nbuf0_6)

abbrev scr0 : Memref sig .tc .vmem S1x128x256 .f32 := Memref.whole cc0_scratch0

abbrev hscr0 : (scr0).IsWhole := Memref.isWhole_whole _

abbrev VS0 : View sig .tc .vmem S1x128x256 .f32 := (scr0).view

abbrev VO0 : View sig .tc .vmem S1x128x256 .f32 := (Memref.whole cc0_stg6_0 : Memref sig .tc .vmem S1x128x256 .f32).view

abbrev fh0 (c : Dev nD) (t : Fin cfg0.N) (h : t.val % 2 = 0) :=
  firstHalf0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr0 hscr0
    ((clears0_iff t).mpr h) (fun he => absurd ((emits0_iff t).mp he) (by omega)) (iblk0 V c 0 t) (iblk0 V c 1 t)

theorem coverS_first0 (c : Dev nD) (t : Fin cfg0.N) (h : t.val % 2 = 0) (y : S1x128x256.Idx) :
    ∃ pc ∈ (fh0 V c t h).1, y ∈ pc.1.set :=
  View.cover_of_tiledL (fh0 V c t h).1 S1x128x256.size (by sl_kernel_rfl) y

def selFirst0 (c : Dev nD) (t : Fin cfg0.N) (h : t.val % 2 = 0) : Vec F S1x128x256 .f32 :=
  VS0.read (Elt F) (VS0.writes (Elt F) VS0.junk (fh0 V c t h).1)

def carried0 (c : Dev nD) (n : ℕ) : Vec F S1x128x256 .f32 :=
  if h : n < cfg0.N ∧ n % 2 = 0 then selFirst0 V c ⟨n, h.1⟩ h.2 else VS0.read (Elt F) VS0.junk

abbrev lh0 (c : Dev nD) (t : Fin cfg0.N) (h : t.val % 2 = 1) :=
  lastHalf0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scr0 hscr0
    (fun hz => absurd ((clears0_iff t).mp hz) (by omega)) ((emits0_iff t).mpr h)
    (iblk0 V c 0 t) (iblk0 V c 1 t) (iblk0 V c 2 t) (iblk0 V c 3 t) (iblk0 V c 4 t) (iblk0 V c 5 t) (carried0 V c (t.val - 1))

theorem coverO_last0 (c : Dev nD) (t : Fin cfg0.N) (h : t.val % 2 = 1) (y : S1x128x256.Idx) :
    ∃ pc ∈ (lh0 V c t h).1.1, y ∈ pc.1.set :=
  View.cover_of_tiledL (lh0 V c t h).1.1 S1x128x256.size (by sl_kernel_rfl) y

def outLast0 (c : Dev nD) (t : Fin cfg0.N) (h : t.val % 2 = 1) : Vec F S1x128x256 .f32 :=
  VO0.read (Elt F) (VO0.writes (Elt F) VO0.junk (lh0 V c t h).1.1)

def scratchAt0 (c : Dev nD) (k : ℕ) : sProp 𝕄 :=
  iprop(∃ d : Vec F S1x128x256 .f32, ⌜k % 2 = 1 → d = carried0 V c (k - 1)⌝ ∗ owns (c : Thread nD τ) scr0 fullShare d)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => if h : t.val % 2 = 1 then outLast0 V c t h else VO0.read (Elt F) VO0.junk
  Φ k := iprop(scratchAt0 V c k.val
    ∗ Pipeline.scopedRestBut (Ix := Unit) (Name := ℕ) (U := UR sig nD τ) (Lvl := ℕ) (Val := Elt F) spec0 c [cc0_scratch0]
    ∗ ∃ r, prngReg c r)
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) (h : t.val % 2 = 1) : (dat0 V c).after 6 t = outLast0 V c t h := by
  dsimp only [dat0]; rw [dif_pos h]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t) := by
  refine ⟨?_, ?_, ?_, ?_, ?_, ?_⟩ <;> exact fun d =>
    ((dat0 V c).before_in_eq_fetched _ rfl (fun _ => rfl) (fun _ _ _ => rfl) (fun _ => rfl) t d).trans rfl

theorem Φ_eq0 (c : Dev nD) (k : Fin (cfg0.N + 1)) (n : ℕ) (hn : k.val = n) : (dat0 V c).Φ k = iprop(scratchAt0 V c n
    ∗ Pipeline.scopedRestBut (Ix := Unit) (Name := ℕ) (U := UR sig nD τ) (Lvl := ℕ) (Val := Elt F) spec0 c [cc0_scratch0] ∗ ∃ r, prngReg c r) := by
  subst hn; rfl

def bodyPre0 (c : Dev nD) (t : Fin cfg0.N) : sProp 𝕄 :=
  let P (w : Fin cfg0.W) (m : Memref sig .tc .vmem (cfg0.win w).block (cfg0.win w).elt) : sProp 𝕄 :=
    iprop(∃ d, owns (c : Thread nD τ) m fullShare ((dat0 V c).before w t d))
  iprop((dat0 V c).Φ t.castSucc ∗ (dat0 V c).owesAt () t.castSucc ∗ P 0 (ms0_0 t) ∗ P 1 (ms0_1 t) ∗ P 2 (ms0_2 t) ∗ P 3 (ms0_3 t)
    ∗ P 4 (ms0_4 t) ∗ P 5 (ms0_5 t) ∗ P 6 (ms0_6 t))

def bodyPostFirst0 (c : Dev nD) (t : Fin cfg0.N) : sProp 𝕄 :=
  let Q (w : Fin cfg0.W) (m : Memref sig .tc .vmem (cfg0.win w).block (cfg0.win w).elt)
      (x : (cfg0.win w).block.Idx → Elt F (cfg0.win w).elt) : sProp 𝕄 := owns (c : Thread nD τ) m fullShare x
  iprop((dat0 V c).Φ t.succ ∗ (dat0 V c).owesAt () t.castSucc ∗ Q 0 (ms0_0 t) (iblk0 V c 0 t) ∗ Q 1 (ms0_1 t) (iblk0 V c 1 t) ∗ Q 2 (ms0_2 t) (iblk0 V c 2 t)
    ∗ Q 3 (ms0_3 t) (iblk0 V c 3 t) ∗ Q 4 (ms0_4 t) (iblk0 V c 4 t) ∗ Q 5 (ms0_5 t) (iblk0 V c 5 t)
    ∗ (∃ d, owns (c : Thread nD τ) (ms0_6 t) fullShare ((dat0 V c).before 6 t d)))

def bodyPostLast0 (c : Dev nD) (t : Fin cfg0.N) : sProp 𝕄 :=
  let Q (w : Fin cfg0.W) (m : Memref sig .tc .vmem (cfg0.win w).block (cfg0.win w).elt)
      (x : (cfg0.win w).block.Idx → Elt F (cfg0.win w).elt) : sProp 𝕄 := owns (c : Thread nD τ) m fullShare x
  iprop((dat0 V c).Φ t.succ ∗ (dat0 V c).owesAt () t.castSucc ∗ Q 0 (ms0_0 t) (iblk0 V c 0 t) ∗ Q 1 (ms0_1 t) (iblk0 V c 1 t) ∗ Q 2 (ms0_2 t) (iblk0 V c 2 t)
    ∗ Q 3 (ms0_3 t) (iblk0 V c 3 t) ∗ Q 4 (ms0_4 t) (iblk0 V c 4 t) ∗ Q 5 (ms0_5 t) (iblk0 V c 5 t)
    ∗ Q 6 (ms0_6 t) ((dat0 V c).after 6 t))

theorem sound_first0 (c : Dev nD) (t : Fin cfg0.N) (h : t.val % 2 = 0) :
    bodyPre0 V c t ⊢ wp frame (wpE (defs₀ (F := F)) Variants.none c none) Set.univ (bodyAt0 t) (fun _ => bodyPostFirst0 V c t) := by
  unfold bodyPre0 bodyPostFirst0 bodyAt0
  obtain ⟨b0, b1, b2, b3, b4, b5⟩ := before0 V c t
  simp only [b0, b1, b2, b3, b4, b5]
  rw [Φ_eq0 V c t.castSucc t.val rfl, Φ_eq0 V c t.succ (t.val + 1) rfl]
  unfold scratchAt0
  iintro ⟨⟨⟨%d9, -, H9⟩, Hrest⟩, Ho, ⟨%d0, H0⟩, ⟨%d1, H1⟩, ⟨%d2, H2⟩, ⟨%d3, H3⟩, ⟨%d4, H4⟩, ⟨%d5, H5⟩, H6⟩
  iapply ((fh0 V c t h).2 Set.univ _)
  iframe H0 H1
  isplitl [H9]; · iexists _; iexact H9
  iintro ⟨H0, H1, ⟨%e9, H9⟩⟩
  iframe Hrest Ho H0 H1 H2 H3 H4 H5 H6
  iexists (selFirst0 V c t h); isplitr
  · ipureintro; intro _
    unfold carried0; rw [dif_pos ⟨t.isLt, h⟩]; rfl
  · unfold owns; iexists _; isplitr
    swap; · iexact H9
    ipureintro; exact View.read_writes_of_cover _ _ _ _ _ (coverS_first0 V c t h)

theorem sound_last0 (c : Dev nD) (t : Fin cfg0.N) (h : t.val % 2 = 1) :
    bodyPre0 V c t ⊢ wp frame (wpE (defs₀ (F := F)) Variants.none c none) Set.univ (bodyAt0 t) (fun _ => bodyPostLast0 V c t) := by
  unfold bodyPre0 bodyPostLast0 bodyAt0
  obtain ⟨b0, b1, b2, b3, b4, b5⟩ := before0 V c t
  simp only [b0, b1, b2, b3, b4, b5]
  rw [after0_6 V c t h, Φ_eq0 V c t.castSucc t.val rfl, Φ_eq0 V c t.succ (t.val + 1) rfl]
  unfold scratchAt0
  iintro ⟨⟨⟨%d9, %hd9, H9⟩, Hrest⟩, Ho, ⟨%d0, H0⟩, ⟨%d1, H1⟩, ⟨%d2, H2⟩, ⟨%d3, H3⟩, ⟨%d4, H4⟩, ⟨%d5, H5⟩, ⟨%d6, H6⟩⟩
  obtain rfl := hd9 h
  iapply ((lh0 V c t h).2 Set.univ _)
  iframe H0 H1 H2 H3 H4 H5 H9
  isplitl [H6]; · iexists _; iexact H6
  iintro ⟨H0, H1, H2, H3, H4, H5, ⟨%e6, H6⟩, ⟨%e9, H9⟩⟩
  iframe Hrest Ho H0 H1 H2 H3 H4 H5
  isplitl [H9]
  · iexists (VS0.read (Elt F) (VS0.writes (Elt F) e9 (lh0 V c t h).1.2)); isplitr
    · ipureintro; intro h'; omega
    · unfold owns; iexists _; isplitr
      swap; · iexact H9
      ipureintro; rfl
  unfold owns; iexists _; isplitr
  swap; · iexact H6
  ipureintro; exact View.read_writes_of_cover _ _ _ _ _ (coverO_last0 V c t h)

theorem idle0_6_even (t : Fin cfg0.N) (h : t.val % 2 = 0) : idle0 6 (grid0.coords t) = true := by
  have : ¬ emits0 (grid0.coords t) := fun he => absurd ((emits0_iff t).mp he) (by omega)
  show (!(k0_cond2 (grid0.coords t) == 1#1)) = true
  simpa [emits0] using this

theorem idle0_6_odd (t : Fin cfg0.N) (h : t.val % 2 = 1) : idle0 6 (grid0.coords t) = false := by
  have : emits0 (grid0.coords t) := (emits0_iff t).mpr h
  show (!(k0_cond2 (grid0.coords t) == 1#1)) = false
  simpa [emits0] using this

theorem flush0_6_even (t : Fin cfg0.N) (h : t.val % 2 = 0) : (win0 6).flush t = false :=
  Bool.eq_false_iff.mpr fun hf => by have := (flush0_6 t).mp hf; omega

theorem body_obligation0 (c : Dev nD) : BodyObligation (dat0 (F := F) V c) (defs₀ (F := F)) Variants.none () Set.univ := fun t => by
  rw [bigSep_W0, bigSep_W0]
  rcases Nat.mod_two_eq_zero_or_one t.val with h | h
  · simp only [idle0_6_even t h, flush0_6_even t h]
    exact sound_first0 V c t h
  · simp only [idle0_6_odd t h]
    exact sound_last0 V c t h

end Cert.KernelIdeal.Hand

end
-- ==== Proof.KI.Body1.lean ====
import proofs.«428561_j53893249630457_3_alg».proof.Proof.Gen.KernelIdeal.Launch
import proofs.«428561_j53893249630457_3_alg».proof.Proof.Gen.KernelIdeal.Skeleton
import proofs.«428561_j53893249630457_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) :=
  (by decide +kernel : ∀ t : Fin grid1.N, cond1_0 (grid1.coords t))

theorem hcond1_1 : ∀ t : Fin cfg1.N, k1_cond2 (grid1.coords t) = 1#1 :=
  (by decide +kernel : ∀ t : Fin grid1.N, k1_cond2 (grid1.coords t) = 1#1)

theorem hoff1 : ∀ t : Fin cfg1.N, k1_off1 (grid1.coords t) = fun _ => 0 :=
  (by decide +kernel : ∀ t : Fin grid1.N, k1_off1 (grid1.coords t) = fun _ => 0)

def acc1 (x0 : Vec F S1x512x4096 .f32) (x1 : Vec F S128x4096 .bf16) : Vec F S1x128x512 .f32 :=
  k1_pay2 x1 x0 k1_pay1

def out1 (x0 : Vec F S1x512x4096 .f32) (x1 : Vec F S128x4096 .bf16) (x2 : Vec F S512x256 .f32) (x3 : Vec F S1x256 .f32)
    (x4 : Vec F S256x256 .f32) (x5 : Vec F S1x256 .f32) : Vec F S1x128x256 .f32 :=
  k1_pay3 (acc1 x0 x1) x2 x3 x4 x5

theorem zeros3 : (![0, 0, 0] : Fin 3 → ℕ) = fun _ => 0 := by funext a; fin_cases a <;> rfl

theorem zeros2 : (![0, 0] : Fin 2 → ℕ) = fun _ => 0 := by funext a; fin_cases a <;> rfl

theorem cover_head {S : Shape} {e : EltTy} {off : Fin S.rank → ℕ} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

theorem sound_kernel1 (c : Dev nD) (E : Set ℕ) (t : Fin cfg1.N) (arg2 : Memref sig .tc .vmem S1x512x4096 .f32) (harg2 : arg2.IsWhole) (arg3 : Memref sig .tc .vmem S128x4096 .bf16) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x128x256 .f32) (harg8 : arg8.IsWhole) (arg9 : Memref sig .tc .vmem S1x128x512 .f32) (harg9 : arg9.IsWhole)
    (x0 : Vec F S1x512x4096 .f32) (x1 : Vec F S128x4096 .bf16) (x2 : Vec F S512x256 .f32) (x3 : Vec F S1x256 .f32) (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out1 x0 x1 x2 x3 x4 x5) ∗ owns (c : Thread nD τ) arg9 fullShare (acc1 x0 x1)) -∗ K ⟨⟩))
      ⊢ wp frame (wpE (defs₀ (F := F)) Variants.none c none) E (cc1_kernel (grid1.coords t) arg2 harg2 arg3 harg3 arg4 harg4 arg5 harg5 arg6 harg6 arg7 harg7 arg8 harg8 arg9 harg9) K := by
  have hc0 := hcond1_0 t
  have hc1 := hcond1_1 t
  have hz := hoff1 t
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    sl_unfold_run_names
    rw [View.read_writes_eq_canon _ _ _ (cover_head (S := S1x128x256) zeros3 _ _ _), View.canon_unit_zero (S := S1x128x256) zeros3,
      View.readCov_eq_canon_ld _ _ _ (cover_head (S := S1x128x512) zeros3 _ _ _), View.ld_unit_zero (S := S1x128x512) zeros3,
      View.canon_cons_unit_zero (S := S1x128x512) zeros3, View.readCov_unit_zero (S := S1x128x512) _ zeros3]
    simp only [View.readAt_eq_ld, View.ld_unit_zero (S := S128x4096) hz, View.ld_unit_zero (S := S1x512x4096) zeros3,
      View.ld_unit_zero (S := S512x256) zeros2, View.ld_unit_zero (S := S1x256) zeros2, View.ld_unit_zero (S := S256x256) zeros2]
    rfl
  iexists _; isplitr
  swap; · iexact H7
  ipureintro
  sl_unfold_run_names
  rw [View.read_writes_eq_canon _ _ _ (cover_head (S := S1x128x512) zeros3 _ _ _), View.canon_cons_unit_zero (S := S1x128x512) zeros3,
    View.readCov_unit_zero (S := S1x128x512) _ zeros3]
  simp only [View.readAt_eq_ld, View.ld_unit_zero (S := S128x4096) hz, View.ld_unit_zero (S := S1x512x4096) zeros3]
  rfl

end Cert.KernelIdeal.Hand

end
-- ==== Proof.KI.Data1.lean ====
import proofs.«428561_j53893249630457_3_alg».proof.Proof.KI.Body1
import Idealize.ShloMosaic.Lib.Pipeline.FrameBody
import Idealize.ShloMosaic.Lib.Ring
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1 (t : Fin cfg1.N) (w : Fin cfg1.W) := (cfg1.win w).stage (cfg1.slots t w)

abbrev scr1 : Memref sig .tc .vmem S1x128x512 .f32 := Memref.whole cc1_scratch0

abbrev hscr1 : (scr1).IsWhole := Memref.isWhole_whole _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := iprop((∃ d : Vec F S1x128x512 .f32, owns (c : Thread nD τ) (Memref.whole cc1_scratch0 : Memref sig .tc .vmem S1x128x512 .f32) fullShare d)
    ∗ Pipeline.scopedRestBut (Ix := Unit) (Name := ℕ) (U := UR sig nD τ) (Lvl := ℕ) (Val := Elt F) spec1 c [cc1_scratch0] ∗ ∃ r, prngReg c r)
  q _ := fullShare
  owed _ := 0

theorem A_eq1 (c : Dev nD) (w : Fin cfg1.W) : (dat1 V c).A w = V c (Pipeline.arrRef spec1 w) := by
  dsimp only [dat1]

theorem Φ_eq1 (c : Dev nD) (k : Fin (cfg1.N + 1)) : (dat1 V c).Φ k = iprop((∃ d : Vec F S1x128x512 .f32, owns (c : Thread nD τ) (Memref.whole cc1_scratch0 : Memref sig .tc .vmem S1x128x512 .f32) fullShare d)
    ∗ Pipeline.scopedRestBut (Ix := Unit) (Name := ℕ) (U := UR sig nD τ) (Lvl := ℕ) (Val := Elt F) spec1 c [cc1_scratch0] ∗ ∃ r, prngReg c r) := rfl

theorem after1_6 (c : Dev nD) (t : Fin cfg1.N) :
    (dat1 V c).after 6 t = out1 (iblk1 V c 0 t) (iblk1 V c 1 t) (iblk1 V c 2 t) (iblk1 V c 3 t) (iblk1 V c 4 t) (iblk1 V c 5 t) := by dsimp only [dat1]

theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;> exact fun d =>
    ((dat1 V c).before_in_eq_fetched _ rfl (fun _ => rfl) (fun _ _ _ => rfl) (fun _ => rfl) t d).trans rfl

def bodyPre1 (c : Dev nD) (t : Fin cfg1.N) : sProp 𝕄 :=
  let P (w : Fin cfg1.W) : sProp 𝕄 := iprop(∃ d, owns (c : Thread nD τ) (ms1 t w) fullShare ((dat1 V c).before w t d))
  iprop((dat1 V c).Φ t.castSucc ∗ (dat1 V c).owesAt () t.castSucc ∗ P 0 ∗ P 1 ∗ P 2 ∗ P 3 ∗ P 4 ∗ P 5 ∗ P 6)

def bodyPost1 (c : Dev nD) (t : Fin cfg1.N) : sProp 𝕄 :=
  let Q (w : Fin cfg1.W) (x : (cfg1.win w).block.Idx → Elt F (cfg1.win w).elt) : sProp 𝕄 := owns (c : Thread nD τ) (ms1 t w) fullShare x
  iprop((dat1 V c).Φ t.succ ∗ (dat1 V c).owesAt () t.castSucc ∗ Q 0 (iblk1 V c 0 t) ∗ Q 1 (iblk1 V c 1 t) ∗ Q 2 (iblk1 V c 2 t)
    ∗ Q 3 (iblk1 V c 3 t) ∗ Q 4 (iblk1 V c 4 t) ∗ Q 5 (iblk1 V c 5 t) ∗ Q 6 ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨b0, b1, b2, b3, b4, b5⟩ := before1 V c t
  simp only [b0, b1, b2, b3, b4, b5]
  rw [after1_6, Φ_eq1, Φ_eq1]
  iintro ⟨⟨⟨%d9, H9⟩, Hrest⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ t (ms1 t 0) (stage_whole1 0 _) (ms1 t 1) (stage_whole1 1 _) (ms1 t 2) (stage_whole1 2 _) (ms1 t 3) (stage_whole1 3 _)
    (ms1 t 4) (stage_whole1 4 _) (ms1 t 5) (stage_whole1 5 _) (ms1 t 6) (stage_whole1 6 _) scr1 hscr1
    (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  isplitl [H9]; · iexists _; iexact H9
  iintro ⟨H0, H1, H2, H3, H4, H5, H6, H9⟩
  iframe Hrest Ho H0 H1 H2 H3 H4 H5 H6
  iexists _; iexact H9

theorem idle1_6 (t : Fin cfg1.N) : idle1 6 (grid1.coords t) = false := by
  show (!(k1_cond2 (grid1.coords t) == 1#1)) = false
  rw [hcond1_1 t]; rfl

theorem body_obligation1 (c : Dev nD) : BodyObligation (dat1 (F := F) V c) (defs₀ (F := F)) Variants.none () Set.univ := fun t => by
  rw [bigSep_W1, bigSep_W1]
  simp only [idle1_6 t]
  exact sound_body1 V c t

end Cert.KernelIdeal.Hand

end
-- ==== Proof.KI.Body2.lean ====
import proofs.«428561_j53893249630457_3_alg».proof.Proof.Gen.KernelIdeal.Launch
import proofs.«428561_j53893249630457_3_alg».proof.Proof.Gen.KernelIdeal.Skeleton
import proofs.«428561_j53893249630457_3_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem hz3 : (![0, 0, 0] : Fin 3 → Nat) = fun _ => 0 := funext fun a => by fin_cases a <;> rfl

theorem off1_zero : ∀ t : Fin cfg2.N, k2_off1 (grid2.coords t) = fun _ => 0 :=
  (by decide +kernel : ∀ t : Fin grid2.N, k2_off1 (grid2.coords t) = fun _ => 0)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) :=
  (by decide +kernel : ∀ t : Fin grid2.N, cond2_0 (grid2.coords t))

theorem hcond2_1 : ∀ t : Fin cfg2.N, k2_cond2 (grid2.coords t) = 1#1 :=
  (by decide +kernel : ∀ t : Fin grid2.N, k2_cond2 (grid2.coords t) = 1#1)

abbrev rx_0 : Rect S2x1024x1024 := Rect.unit (s := S2x1024x1024) ![0, 0, 0] S1x1024x1024.size inb_S2x1024x1024_S1x1024x1024_0_0_0

abbrev rx_1 : Rect S2x1024x1024 := Rect.unit (s := S2x1024x1024) ![1, 0, 0] S1x1024x1024.size inb_S2x1024x1024_S1x1024x1024_1_0_0

abbrev r9w : Rect S2x128x1024 := Rect.unit (s := S2x128x1024) ![0, 0, 0] S2x128x1024.size inb_S2x128x1024_S2x128x1024_0_0_0

abbrev r9_0 : Rect S2x128x1024 := Rect.unit (s := S2x128x1024) ![0, 0, 0] S1x128x1024.size inb_S2x128x1024_S1x128x1024_0_0_0

abbrev r9_1 : Rect S2x128x1024 := Rect.unit (s := S2x128x1024) ![1, 0, 0] S1x128x1024.size inb_S2x128x1024_S1x128x1024_1_0_0

abbrev r8_0 : Rect S2x128x256 := Rect.unit (s := S2x128x256) ![0, 0, 0] S1x128x256.size inb_S2x128x256_S1x128x256_0_0_0

abbrev r8_1 : Rect S2x128x256 := Rect.unit (s := S2x128x256) ![1, 0, 0] S1x128x256.size inb_S2x128x256_S1x128x256_1_0_0

def accZ : Vec F S2x128x1024 .f32 := View.canon [⟨r9w, k2_pay4 (F := F)⟩]

def accB0 (x0 : Vec F S2x1024x1024 .f32) (x1 : Vec F S128x1024 .bf16) : Vec F S1x128x1024 .f32 :=
  k2_pay6 x1 (View.ld x0 rx_0) (View.ld (accZ (F := F)) r9_0)

def accM (x0 : Vec F S2x1024x1024 .f32) (x1 : Vec F S128x1024 .bf16) : Vec F S2x128x1024 .f32 :=
  View.canon [⟨r9_0, accB0 x0 x1⟩, ⟨r9w, k2_pay4 (F := F)⟩]

def accB1 (x0 : Vec F S2x1024x1024 .f32) (x1 : Vec F S128x1024 .bf16) : Vec F S1x128x1024 .f32 :=
  k2_pay7 x1 (View.ld x0 rx_1) (View.ld (accM x0 x1) r9_1)

def acc2 (x0 : Vec F S2x1024x1024 .f32) (x1 : Vec F S128x1024 .bf16) : Vec F S2x128x1024 .f32 :=
  View.canon [⟨r9_1, accB1 x0 x1⟩, ⟨r9_0, accB0 x0 x1⟩, ⟨r9w, k2_pay4 (F := F)⟩]

def outB0 (x0 : Vec F S2x1024x1024 .f32) (x1 : Vec F S128x1024 .bf16) (x2 : Vec F S1024x256 .f32) (x3 : Vec F S1x256 .f32) (x4 : Vec F S256x256 .f32) (x5 : Vec F S1x256 .f32) : Vec F S1x128x256 .f32 :=
  k2_pay2 (View.ld (acc2 x0 x1) r9_0) x2 x3 x4 x5

def outB1 (x0 : Vec F S2x1024x1024 .f32) (x1 : Vec F S128x1024 .bf16) (x2 : Vec F S1024x256 .f32) (x3 : Vec F S1x256 .f32) (x4 : Vec F S256x256 .f32) (x5 : Vec F S1x256 .f32) : Vec F S1x128x256 .f32 :=
  k2_pay1 (k2_pay3 (View.ld (acc2 x0 x1) r9_1)) x2 x3 x4 x5

def out2 (x0 : Vec F S2x1024x1024 .f32) (x1 : Vec F S128x1024 .bf16) (x2 : Vec F S1024x256 .f32) (x3 : Vec F S1x256 .f32) (x4 : Vec F S256x256 .f32) (x5 : Vec F S1x256 .f32) : Vec F S2x128x256 .f32 :=
  View.canon [⟨r8_1, outB1 x0 x1 x2 x3 x4 x5⟩, ⟨r8_0, outB0 x0 x1 x2 x3 x4 x5⟩]

theorem cover9_1 (p4 : r9w.shape.Idx → Elt F .f32) (y : S2x128x1024.Idx) :
    ∃ pc ∈ ([⟨r9w, p4⟩] : List (View.Piece (Elt F) S2x128x1024 .f32)), y ∈ pc.1.set :=
  ⟨_, List.mem_singleton_self _, View.mem_set_unit_zero hz3 inb_S2x128x1024_S2x128x1024_0_0_0 y⟩

theorem cover9_2 (p6 : r9_0.shape.Idx → Elt F .f32) (p4 : r9w.shape.Idx → Elt F .f32) (y : S2x128x1024.Idx) :
    ∃ pc ∈ ([⟨r9_0, p6⟩, ⟨r9w, p4⟩] : List (View.Piece (Elt F) S2x128x1024 .f32)), y ∈ pc.1.set :=
  ⟨⟨r9w, p4⟩, by simp, View.mem_set_unit_zero hz3 inb_S2x128x1024_S2x128x1024_0_0_0 y⟩

theorem cover9_3 (p7 : r9_1.shape.Idx → Elt F .f32) (p6 : r9_0.shape.Idx → Elt F .f32) (p4 : r9w.shape.Idx → Elt F .f32) (y : S2x128x1024.Idx) :
    ∃ pc ∈ ([⟨r9_1, p7⟩, ⟨r9_0, p6⟩, ⟨r9w, p4⟩] : List (View.Piece (Elt F) S2x128x1024 .f32)), y ∈ pc.1.set :=
  ⟨⟨r9w, p4⟩, by simp, View.mem_set_unit_zero hz3 inb_S2x128x1024_S2x128x1024_0_0_0 y⟩

theorem cover8 (p1 : r8_1.shape.Idx → Elt F .f32) (p0 : r8_0.shape.Idx → Elt F .f32) (y : S2x128x256.Idx) :
    ∃ pc ∈ ([⟨r8_1, p1⟩, ⟨r8_0, p0⟩] : List (View.Piece (Elt F) S2x128x256 .f32)), y ∈ pc.1.set :=
  View.cover_of_tiled [⟨r8_1, p1⟩, ⟨r8_0, p0⟩] S1x128x256.size (by rfl) y

theorem sound_kernel2 (c : Dev nD) (E : Set ℕ) (t : Fin cfg2.N)
    (arg2 : Memref sig .tc .vmem S2x1024x1024 .f32) (harg2 : arg2.IsWhole) (arg3 : Memref sig .tc .vmem S128x1024 .bf16) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2x128x256 .f32) (harg8 : arg8.IsWhole) (arg9 : Memref sig .tc .vmem S2x128x1024 .f32) (harg9 : arg9.IsWhole)
    (x0 : Vec F S2x1024x1024 .f32) (x1 : Vec F S128x1024 .bf16) (x2 : Vec F S1024x256 .f32) (x3 : Vec F S1x256 .f32) (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (out2 x0 x1 x2 x3 x4 x5) ∗ owns (c : Thread nD τ) arg9 fullShare (acc2 x0 x1)) -∗ K ⟨⟩))
      ⊢ wp frame (wpE (defs₀ (F := F)) Variants.none c none) E (cc2_kernel (grid2.coords t) arg2 harg2 arg3 harg3 arg4 harg4 arg5 harg5 arg6 harg6 arg7 harg7 arg8 harg8 arg9 harg9) K := by
  have hc0 := hcond2_0 t
  have hc1 := hcond2_1 t
  simp only [cc2_kernel_eq_skeleton]; unfold cc2_kernel_skel
  simp only [k2_part2_eq_skeleton, k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (cover8 _ _)]
    rw [View.readCov_eq_canon_ld _ _ _ (cover9_1 _)]
    rw [View.readCov_eq_canon_ld _ _ _ (cover9_2 _ _)]
    rw [View.readCov_eq_canon_ld _ _ _ (cover9_3 _ _ _)]
    rw [View.readCov_eq_canon_ld _ _ _ (cover9_3 _ _ _)]
    simp only [View.readAt_eq_ld, View.ld_unit_zero (S := S128x1024) (off1_zero t), View.ld_unit_zero (S := S1024x256) hz2,
      View.ld_unit_zero (S := S1x256) hz2, View.ld_unit_zero (S := S256x256) hz2]
    rfl
  iexists _; isplitr
  swap; · iexact H7
  ipureintro
  sl_unfold_run_names
  rw [View.read_writes_eq_canon _ _ _ (cover9_3 _ _ _)]
  rw [View.readCov_eq_canon_ld _ _ _ (cover9_1 _)]
  rw [View.readCov_eq_canon_ld _ _ _ (cover9_2 _ _)]
  simp only [View.readAt_eq_ld, View.ld_unit_zero (S := S128x1024) (off1_zero t)]
  rfl

end Cert.KernelIdeal.Hand

end
-- ==== Proof.KI.Data2.lean ====
import proofs.«428561_j53893249630457_3_alg».proof.Proof.KI.Body2
import Idealize.ShloMosaic.Lib.Pipeline.FrameBody
import Idealize.ShloMosaic.Lib.Ring
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2 (t : Fin cfg2.N) (w : Fin cfg2.W) := (cfg2.win w).stage (cfg2.slots t w)

abbrev scr2 : Memref sig .tc .vmem S2x128x1024 .f32 := Memref.whole cc2_scratch0

abbrev hscr2 : (scr2).IsWhole := Memref.isWhole_whole _

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := iprop((∃ d : Vec F S2x128x1024 .f32, owns (c : Thread nD τ) (Memref.whole cc2_scratch0 : Memref sig .tc .vmem S2x128x1024 .f32) fullShare d)
    ∗ Pipeline.scopedRestBut (Ix := Unit) (Name := ℕ) (U := UR sig nD τ) (Lvl := ℕ) (Val := Elt F) spec2 c [cc2_scratch0] ∗ ∃ r, prngReg c r)
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by
  dsimp only [dat2]

theorem Φ_eq2 (c : Dev nD) (k : Fin (cfg2.N + 1)) : (dat2 V c).Φ k = iprop((∃ d : Vec F S2x128x1024 .f32, owns (c : Thread nD τ) (Memref.whole cc2_scratch0 : Memref sig .tc .vmem S2x128x1024 .f32) fullShare d)
    ∗ Pipeline.scopedRestBut (Ix := Unit) (Name := ℕ) (U := UR sig nD τ) (Lvl := ℕ) (Val := Elt F) spec2 c [cc2_scratch0] ∗ ∃ r, prngReg c r) := rfl

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> exact fun d =>
    ((dat2 V c).before_in_eq_fetched _ rfl (fun _ => rfl) (fun _ _ _ => rfl) (fun _ => rfl) t d).trans rfl

def bodyPre2 (c : Dev nD) (t : Fin cfg2.N) : sProp 𝕄 :=
  let P (w : Fin cfg2.W) : sProp 𝕄 := iprop(∃ d, owns (c : Thread nD τ) (ms2 t w) fullShare ((dat2 V c).before w t d))
  iprop((dat2 V c).Φ t.castSucc ∗ (dat2 V c).owesAt () t.castSucc ∗ P 0 ∗ P 1 ∗ P 2 ∗ P 3 ∗ P 4 ∗ P 5 ∗ P 6)

def bodyPost2 (c : Dev nD) (t : Fin cfg2.N) : sProp 𝕄 :=
  let Q (w : Fin cfg2.W) (x : (cfg2.win w).block.Idx → Elt F (cfg2.win w).elt) : sProp 𝕄 := owns (c : Thread nD τ) (ms2 t w) fullShare x
  iprop((dat2 V c).Φ t.succ ∗ (dat2 V c).owesAt () t.castSucc ∗ Q 0 (iblk2 V c 0 t) ∗ Q 1 (iblk2 V c 1 t) ∗ Q 2 (iblk2 V c 2 t)
    ∗ Q 3 (iblk2 V c 3 t) ∗ Q 4 (iblk2 V c 4 t) ∗ Q 5 (iblk2 V c 5 t) ∗ Q 6 ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨b0, b1, b2, b3, b4, b5⟩ := before2 V c t
  simp only [b0, b1, b2, b3, b4, b5]
  rw [after2_6, Φ_eq2, Φ_eq2]
  iintro ⟨⟨⟨%d9, H9⟩, Hrest⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ t (ms2 t 0) (stage_whole2 0 _) (ms2 t 1) (stage_whole2 1 _) (ms2 t 2) (stage_whole2 2 _) (ms2 t 3) (stage_whole2 3 _) (ms2 t 4) (stage_whole2 4 _) (ms2 t 5) (stage_whole2 5 _) (ms2 t 6) (stage_whole2 6 _) scr2 hscr2
    (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  isplitl [H9]; · iexists _; iexact H9
  iintro ⟨H0, H1, H2, H3, H4, H5, H6, H9⟩
  iframe Hrest Ho H0 H1 H2 H3 H4 H5 H6
  iexists _; iexact H9

theorem idle2_6 (t : Fin cfg2.N) : idle2 6 (grid2.coords t) = false := by
  show (!(k2_cond2 (grid2.coords t) == 1#1)) = false
  rw [hcond2_1 t]; rfl

theorem body_obligation2 (c : Dev nD) : BodyObligation (dat2 (F := F) V c) (defs₀ (F := F)) Variants.none () Set.univ := fun t => by
  rw [bigSep_W2, bigSep_W2]
  simp only [idle2_6 t]
  exact sound_body2 V c t

end Cert.KernelIdeal.Hand

end
-- ==== Proof.KI.PData.lean ====
import proofs.«428561_j53893249630457_3_alg».proof.Proof.KI.Data0
import proofs.«428561_j53893249630457_3_alg».proof.Proof.KI.Data1
import proofs.«428561_j53893249630457_3_alg».proof.Proof.KI.Data2
import proofs.«428561_j53893249630457_3_alg».proof.Proof.Gen.KernelIdeal.Regions

noncomputable section

namespace Cert.KernelIdeal.Hand

open Cert.KernelIdeal.Gen
open Idealize.ShloMosaic Idealize.ShloMosaic.TcCoe
open Idealize.SL.BI
open Idealize.SL.BI.BIBase
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev entry0 (c : Dev nD) (b : Ref sig .tc) : Buf (Elt F) ((c : Thread nD τ).loc b) := V1 m c b

def res0 (c : Dev nD) : Buf (Elt F) ((c : Thread nD τ).loc main_v10) := (dat0 (entry0 m) c).arrAt 6 cfg0.N

def outsA : Outs (F := F) := fun _ r c => if h : r = main_v10 then h ▸ res0 m c else m ((c : Thread nD τ).loc r)

abbrev entry1 (c : Dev nD) (b : Ref sig .tc) : Buf (Elt F) ((c : Thread nD τ).loc b) := V3 m (outsA m) c b

def res1 (c : Dev nD) : Buf (Elt F) ((c : Thread nD τ).loc main_v21) := (dat1 (entry1 m) c).arrAt 6 cfg1.N

def outsB : Outs (F := F) := fun _ r c =>
  if h : r = main_v10 then h ▸ res0 m c else if h : r = main_v21 then h ▸ res1 m c else m ((c : Thread nD τ).loc r)

abbrev entry2 (c : Dev nD) (b : Ref sig .tc) : Buf (Elt F) ((c : Thread nD τ).loc b) := V5 m (outsB m) c b

def res2 (c : Dev nD) : Buf (Elt F) ((c : Thread nD τ).loc main_v32) := (dat2 (entry2 m) c).arrAt 6 cfg2.N

def outs : Outs (F := F) := fun _ r c =>
  if h : r = main_v10 then h ▸ res0 m c else if h : r = main_v21 then h ▸ res1 m c
  else if h : r = main_v32 then h ▸ res2 m c else m ((c : Thread nD τ).loc r)

theorem outsA_v10 (J : ℕ) (c : Dev nD) : outsA m J main_v10 c = res0 m c := by unfold outsA; rw [dif_pos rfl]

theorem outsB_v10 (J : ℕ) (c : Dev nD) : outsB m J main_v10 c = res0 m c := by unfold outsB; rw [dif_pos rfl]

theorem outsB_v21 (J : ℕ) (c : Dev nD) : outsB m J main_v21 c = res1 m c := by
  unfold outsB; rw [dif_neg (by decide), dif_pos rfl]

theorem outs_v10 (J : ℕ) (c : Dev nD) : outs m J main_v10 c = res0 m c := by unfold outs; rw [dif_pos rfl]

theorem outs_v21 (J : ℕ) (c : Dev nD) : outs m J main_v21 c = res1 m c := by
  unfold outs; rw [dif_neg (by decide), dif_pos rfl]

theorem outs_v32 (J : ℕ) (c : Dev nD) : outs m J main_v32 c = res2 m c := by
  unfold outs; rw [dif_neg (by decide), dif_neg (by decide), dif_pos rfl]

theorem V3_outs (c : Dev nD) : V3 m (outs m) c = V3 m (outsA m) c := by
  show StableHlo.after hostOps1 (Function.update (V1 m c) main_v10 (outs m 2 main_v10 c))
    = StableHlo.after hostOps1 (Function.update (V1 m c) main_v10 (outsA m 2 main_v10 c))
  rw [outs_v10, outsA_v10]

theorem V5_outs (c : Dev nD) : V5 m (outs m) c = V5 m (outsB m) c := by
  show StableHlo.after hostOps2 (Function.update (StableHlo.after hostOps1 (Function.update (V1 m c) main_v10 (outs m 2 main_v10 c))) main_v21 (outs m 4 main_v21 c))
    = StableHlo.after hostOps2 (Function.update (StableHlo.after hostOps1 (Function.update (V1 m c) main_v10 (outsB m 2 main_v10 c))) main_v21 (outsB m 4 main_v21 c))
  rw [outs_v10, outs_v21, outsB_v10, outsB_v21]

def pdats : (p : Fin 3) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
  | ⟨2, _⟩ => fun c => dat2 (entry2 m) c

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.KI.RegLib.lean ====
import proofs.«428561_j53893249630457_3_alg».proof.Proof.KI.PData
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.BI.Laws Idealize.SL.ProofMode
open scoped Idealize.SL.BI
open Idealize.ShloMosaic.Pipeline (Dat Cfg)

variable {F : FTy → Type} [FloatOps F]

local notation "𝕄" => MT nD τ sig Unit (Elt F) ℕ (UR sig nD τ) ℕ

/-- A whole buffer held at some contents is the buffer's location holding some contents, -/
theorem pt_owns (c : Dev nD) (b : Ref sig .tc) :
    iprop(∃ f : Buf (Elt F) ((c.tc : Thread nD τ).loc b), ((c.tc : Thread nD τ).loc b) ↦{fullShare} f)
      ⊢ (iprop(∃ d : b.ty.Contents (Elt F), owns (c : Thread nD τ) (Memref.whole b) fullShare d) : sProp 𝕄) := by
  iintro ⟨%f, Hs⟩
  iexists f
  rw [owns_whole_eq]; iexists f; isplitr; · ipureintro; rfl
  iexact Hs

/-- and back. -/
theorem owns_pt (c : Dev nD) (b : Ref sig .tc) :
    (iprop(∃ d : b.ty.Contents (Elt F), owns (c : Thread nD τ) (Memref.whole b) fullShare d) : sProp 𝕄)
      ⊢ iprop(∃ f : Buf (Elt F) ((c.tc : Thread nD τ).loc b), ((c.tc : Thread nD τ).loc b) ↦{fullShare} f) := by
  refine exists_elim fun d => ?_
  rw [owns_whole_eq]; iintro ⟨%f, -, H⟩; iexists f; iexact H

section
variable {cfg : Cfg sig Λ₀} {c : Dev nD} (D : Dat τ (Elt F) Unit ℕ (UR sig nD τ) ℕ cfg c) (t : Fin (cfg.N + 1))

/-- With nothing owed and every pair recorded, the bare tallies are the data's at any point, -/
theorem owes_in (h0 : D.owed t = 0) (hr : ∀ x, x ∈ D.recorded t) :
    iprop(∃ W, owes (c : Thread nD τ) (0 : CellTallies nD τ sig Unit) W) ⊢ (D.owesAt () t : sProp 𝕄) := by
  unfold Pipeline.Dat.owesAt Pipeline.owesWithin
  rw [h0]
  iintro ⟨%W, HO⟩; iexists W; isplitr; · ipureintro; exact fun x _ => Or.inl (hr x)
  iexact HO

/-- and back. -/
theorem owes_out (h0 : D.owed t = 0) :
    (D.owesAt () t : sProp 𝕄) ⊢ iprop(∃ W, owes (c : Thread nD τ) (0 : CellTallies nD τ sig Unit) W) := by
  unfold Pipeline.Dat.owesAt Pipeline.owesWithin
  rw [h0]
  iintro ⟨%W, -, HO⟩; iexists W; iexact HO
end

/-- Every region's list of tables is empty, so holding the tables is holding nothing. -/
theorem prefHeld_none (p : Fin 3) (c : Dev nD) :
    (BI.emp : sProp 𝕄) ⊢ Pipeline.prefHeld (pcfgs (F := F) p).pre c (fun _ => fullShare) (adm p).1 := by
  fin_cases p <;>
    (unfold Pipeline.prefHeld; rw [show (Finset.univ : Finset (Fin 0)) = ∅ from rfl, BI.bigSep_empty])

/-- ENTRY: the held buffers split into the arrays and the rest; the register and the tallies come out of R. -/
theorem entry_gen (c : Dev nD) {H A PH OW Zc : sProp 𝕄} (hsplit : H ⊢ iprop(A ∗ Zc)) (hpf : (BI.emp : sProp 𝕄) ⊢ PH)
    (how : iprop(∃ W, owes (c : Thread nD τ) (0 : CellTallies nD τ sig Unit) W) ⊢ OW) :
    iprop(iprop(H ∗ R (F := F) c) ∗ Pipeline.ownSems0 (fun k : PEmpty => k.elim) c ∗ levAts L lv)
      ⊢ |={Set.univ}=> iprop(A ∗ PH ∗ OW ∗ (∃ r, prngReg c r) ∗ Zc) := by
  rw [Pipeline.ownSems0_none]
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

/-- The invariant at the first point, from the listed buffer, the other scoped buffers and X. -/
theorem hin_gen {Φ SR SB S0 PT X PH : sProp 𝕄} (hΦ : Φ = iprop(S0 ∗ SB ∗ X)) (hSR : SR = iprop(PT ∗ SB)) (hs : PT ⊢ S0) : iprop(X ∗ PH ∗ SR) ⊢ Φ := by
  rw [hΦ, hSR]
  iintro ⟨Hp, -, Hs, Hr⟩
  isplitl [Hs]; · iapply hs; iexact Hs
  isplitl [Hr]; · iexact Hr
  iexact Hp

/-- The invariant at the last point gives them back. -/
theorem hout_gen (c : Dev nD) {Φ SR SB S0 PT X : sProp 𝕄} (hΦ : Φ = iprop(S0 ∗ SB ∗ X)) (hSR : SR = iprop(PT ∗ SB)) (hs : S0 ⊢ PT) :
    Φ ⊢ iprop(X ∗ Pipeline.ownSems0 (fun k : PEmpty => k.elim) c ∗ SR) := by
  rw [hΦ, hSR, Pipeline.ownSems0_none]
  iintro ⟨Hs, Hr, Hp⟩
  isplitl [Hp]; · iexact Hp
  isplitr; · iempintro
  isplitl [Hs]; · iapply hs; iexact Hs
  iexact Hr

/-- EXIT: the arrays and the rest join into the held buffers; the register and the tallies go back into R. -/
theorem exit_gen (c : Dev nD) {H' A OW Zc : sProp 𝕄} (hjoin : iprop(A ∗ Zc) ⊢ H')
    (how : OW ⊢ iprop(∃ W, owes (c : Thread nD τ) (0 : CellTallies nD τ sig Unit) W)) :
    iprop(A ∗ OW ∗ (∃ r, prngReg c r) ∗ Zc) ⊢ |={Set.univ}=> iprop(H' ∗ R (F := F) c) := by
  iintro ⟨Ha, HO, HY, Hrest⟩
  imodintro
  isplitl [Ha Hrest]
  · iapply hjoin; isplitl [Ha] <;> iassumption
  isplitl [HY]; · iexact HY
  iapply how; iexact HO

/-- Region 0's accumulator invariant at the first point: its side condition speaks of odd points only, -/
theorem pt_scratch0 (m : (ℓ : Loc nD τ sig) → Buf (Elt F) ℓ) (c : Dev nD) :
    iprop(∃ f : Buf (Elt F) ((c.tc : Thread nD τ).loc cc0_scratch0), ((c.tc : Thread nD τ).loc cc0_scratch0) ↦{fullShare} f)
      ⊢ (scratchAt0 (entry0 m) c 0 : sProp 𝕄) := by
  unfold scratchAt0
  iintro H
  ihave H2 := pt_owns c cc0_scratch0 $$ H
  icases H2 with ⟨%d, Hd⟩; iexists d; isplitr; · ipureintro; intro h; omega
  iexact Hd

/-- and at any point it is the buffer at some contents. -/
theorem scratch0_pt (m : (ℓ : Loc nD τ sig) → Buf (Elt F) ℓ) (c : Dev nD) (k : ℕ) :
    (scratchAt0 (entry0 m) c k : sProp 𝕄)
      ⊢ iprop(∃ f : Buf (Elt F) ((c.tc : Thread nD τ).loc cc0_scratch0), ((c.tc : Thread nD τ).loc cc0_scratch0) ↦{fullShare} f) := by
  unfold scratchAt0
  iintro ⟨%d, -, Hs⟩; iapply owns_pt c cc0_scratch0; iexists d; iexact Hs

end Cert.KernelIdeal.Hand

end
-- ==== Proof.KI.Reg0.lean ====
import proofs.«428561_j53893249630457_3_alg».proof.Proof.KI.RegLib

noncomputable section

namespace Cert.KernelIdeal.Hand

open Cert.KernelIdeal Cert.KernelIdeal.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit0 (c : Dev nD) (b : Ref sig .tc) : Buf (Elt F) ((c : Thread nD τ).loc b) := V2 m (outs m) c b

theorem final0 (c : Dev nD) (w : Fin cfg0.W) : (pdats m 0 c).arrAt w cfg0.N = exit0 m c (Pipeline.arrRef spec0 w) := by
  have hin : ∀ w : Fin cfg0.W, Pipeline.arrRef spec0 w ∉ ([main_v10] : List (Ref sig .tc)) → (cfg0.win w).isOut = false →
      (pdats m 0 c).arrAt w cfg0.N = exit0 m c (Pipeline.arrRef spec0 w) := fun w hne hw =>
    ((pdats m 0 c).arrAt_in w hw _).trans (V2_of m (outs m) c _ hne).symm
  fin_cases w <;> first
    | exact hin _ (by decide) rfl
    | (show res0 m c = Function.update (V1 m c) (Proc.devRef .tc main_v10) (outs m 2 main_v10 c) (Proc.devRef .tc main_v10)
       rw [Function.update_self, outs_v10])

theorem rest0 (c : Dev nD) : ∀ b, b ∉ Finset.univ.image (Pipeline.arrRef spec0) → exit0 m c b = entry0 m c b :=
  fun b hb => V2_of m (outs m) c b fun h => hb (by
    have : b = main_v10 := by simpa using h
    subst this; exact Finset.mem_image.mpr ⟨6, Finset.mem_univ _, rfl⟩)

def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    exact entry_gen c hsplit (prefHeld_none 0 c) (owes_in (pdats m 0 c) 0 rfl fun _ => trivial)
  hin c := hin_gen (S0 := scratchAt0 (entry0 m) c 0) rfl (Pipeline.scopedRest_split_of_list spec0 c [cc0_scratch0] (by decide) (by decide)) (pt_scratch0 m c)
  hout c := hout_gen c (S0 := scratchAt0 (entry0 m) c _) rfl (Pipeline.scopedRest_split_of_list spec0 c [cc0_scratch0] (by decide) (by decide)) (scratch0_pt m c _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (final0 m c) (rest0 m c)
    rw [Pipeline.unscopedBufs_held] at hjoin
    exact exit_gen c hjoin (owes_out (pdats m 0 c) _ rfl)

end Cert.KernelIdeal.Hand

end
-- ==== Proof.KI.Reg1.lean ====
import proofs.«428561_j53893249630457_3_alg».proof.Proof.KI.RegLib

noncomputable section

namespace Cert.KernelIdeal.Hand

open Cert.KernelIdeal Cert.KernelIdeal.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit1 (c : Dev nD) (b : Ref sig .tc) : Buf (Elt F) ((c : Thread nD τ).loc b) := V4 m (outs m) c b

theorem entry1_eq (c : Dev nD) (b : Ref sig .tc) : entry1 m c b = V3 m (outs m) c b := by
  show V3 m (outsA m) c b = V3 m (outs m) c b
  rw [V3_outs]

theorem final1 (c : Dev nD) (w : Fin cfg1.W) : (pdats m 1 c).arrAt w cfg1.N = exit1 m c (Pipeline.arrRef spec1 w) := by
  have hin : ∀ w : Fin cfg1.W, Pipeline.arrRef spec1 w ∉ ([main_v21] : List (Ref sig .tc)) → (cfg1.win w).isOut = false →
      (pdats m 1 c).arrAt w cfg1.N = exit1 m c (Pipeline.arrRef spec1 w) := fun w hne hw => by
    rw [(pdats m 1 c).arrAt_in w hw cfg1.N, show (pdats m 1 c).A w = _ from A_eq1 (entry1 m) c w]
    exact (entry1_eq m c _).trans (V4_of m (outs m) c _ hne).symm
  fin_cases w <;> first
    | exact hin _ (by decide) rfl
    | (show res1 m c = Function.update (V3 m (outs m) c) (Proc.devRef .tc main_v21) (outs m 4 main_v21 c) (Proc.devRef .tc main_v21)
       rw [Function.update_self, outs_v21])

theorem rest1 (c : Dev nD) : ∀ b, b ∉ Finset.univ.image (Pipeline.arrRef spec1) → exit1 m c b = entry1 m c b :=
  fun b hb => (V4_of m (outs m) c b fun h => hb (by
    have : b = main_v21 := by simpa using h
    subst this; exact Finset.mem_image.mpr ⟨6, Finset.mem_univ _, rfl⟩)).trans (entry1_eq m c b).symm

def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [V3_outs]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    exact entry_gen c hsplit (prefHeld_none 1 c) (owes_in (pdats m 1 c) 0 rfl fun _ => trivial)
  hin c := hin_gen (Φ_eq1 (entry1 m) c 0) (Pipeline.scopedRest_split_of_list spec1 c [cc1_scratch0] (by decide) (by decide)) (pt_owns c cc1_scratch0)
  hout c := hout_gen c (Φ_eq1 (entry1 m) c _) (Pipeline.scopedRest_split_of_list spec1 c [cc1_scratch0] (by decide) (by decide)) (owns_pt c cc1_scratch0)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (final1 m c) (rest1 m c)
    rw [Pipeline.unscopedBufs_held] at hjoin
    exact exit_gen c hjoin (owes_out (pdats m 1 c) _ rfl)

end Cert.KernelIdeal.Hand

end
-- ==== Proof.KI.Reg2.lean ====
import proofs.«428561_j53893249630457_3_alg».proof.Proof.KI.RegLib

noncomputable section

namespace Cert.KernelIdeal.Hand

open Cert.KernelIdeal Cert.KernelIdeal.Gen
open Idealize.ShloMosaic Idealize.ShloMosaic.TcCoe
open Idealize.SL Idealize.SL.BI Idealize.SL.BI.BIBase
open scoped Idealize.SL.BI

variable {F : FTy → Type} [FloatOps F]

variable (m : (ℓ : Loc nD τ sig) → Buf (Elt F) ℓ)

abbrev exit2 (c : Dev nD) (b : Ref sig .tc) : Buf (Elt F) ((c : Thread nD τ).loc b) := V6 m (outs m) c b

theorem entry2_eq (c : Dev nD) (b : Ref sig .tc) : entry2 m c b = V5 m (outs m) c b := by
  show V5 m (outsB m) c b = V5 m (outs m) c b
  rw [V5_outs]

theorem final2 (c : Dev nD) (w : Fin cfg2.W) : (pdats m 2 c).arrAt w cfg2.N = exit2 m c (Pipeline.arrRef spec2 w) := by
  have hin : ∀ w : Fin cfg2.W, Pipeline.arrRef spec2 w ∉ ([main_v32] : List (Ref sig .tc)) → (cfg2.win w).isOut = false →
      (pdats m 2 c).arrAt w cfg2.N = exit2 m c (Pipeline.arrRef spec2 w) := fun w hne hw => by
    rw [(pdats m 2 c).arrAt_in w hw cfg2.N, show (pdats m 2 c).A w = _ from A_eq2 (entry2 m) c w]
    exact (entry2_eq m c _).trans (V6_of m (outs m) c _ hne).symm
  fin_cases w <;> first
    | exact hin _ (by decide) rfl
    | (show res2 m c = Function.update (V5 m (outs m) c) (Proc.devRef .tc main_v32) (outs m 6 main_v32 c) (Proc.devRef .tc main_v32)
       rw [Function.update_self, outs_v32])

theorem rest2 (c : Dev nD) : ∀ b, b ∉ Finset.univ.image (Pipeline.arrRef spec2) → exit2 m c b = entry2 m c b :=
  fun b hb => (V6_of m (outs m) c b fun h => hb (by
    have : b = main_v32 := by simpa using h
    subst this; exact Finset.mem_image.mpr ⟨6, Finset.mem_univ _, rfl⟩)).trans (entry2_eq m c b).symm

def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [V5_outs]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    exact entry_gen c hsplit (prefHeld_none 2 c) (owes_in (pdats m 2 c) 0 rfl fun _ => trivial)
  hin c := hin_gen (Φ_eq2 (entry2 m) c 0) (Pipeline.scopedRest_split_of_list spec2 c [cc2_scratch0] (by decide) (by decide)) (pt_owns c cc2_scratch0)
  hout c := hout_gen c (Φ_eq2 (entry2 m) c _) (Pipeline.scopedRest_split_of_list spec2 c [cc2_scratch0] (by decide) (by decide)) (owns_pt c cc2_scratch0)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (final2 m c) (rest2 m c)
    rw [Pipeline.unscopedBufs_held] at hjoin
    exact exit_gen c hjoin (owes_out (pdats m 2 c) _ rfl)

end Cert.KernelIdeal.Hand

end
-- ==== Proof.KI.Run.lean ====
import proofs.«428561_j53893249630457_3_alg».proof.Proof.KI.Reg0
import proofs.«428561_j53893249630457_3_alg».proof.Proof.KI.Reg1
import proofs.«428561_j53893249630457_3_alg».proof.Proof.KI.Reg2

noncomputable section

namespace Cert.KernelIdeal.Hand

open Cert.KernelIdeal.Gen Idealize.ShloMosaic Idealize.ShloMosaic.TcCoe Idealize.SL Idealize.SL.RA Idealize.SL.BI Idealize.SL.BI.BIBase Idealize.SL.BI.Laws Idealize.SL.Sem Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev launchElt : UR sig nD τ := initOf (Pipeline.cells cfgs cellOf_inj) (Pipeline.launchToks cfgs cellOf_inj)

theorem launchElt_own : (ownU launchElt : sProp 𝕄)
    ⊢ |={Set.univ}=> iprop(BI.own ((emb₁ : Emb (UR sig nD τ) 𝕄) launchElt) ∗ bigSep Finset.univ fun _ : Dev nD => (BI.emp : sProp 𝕄)) := by
  iintro Hu; imodintro
  isplitl [Hu]
  · iapply (show (ownU launchElt : sProp 𝕄) ⊢ BI.own ((emb₁ : Emb (UR sig nD τ) 𝕄) launchElt) from .rfl)
    iexact Hu
  iapply (show (BI.emp : sProp 𝕄) ⊢ bigSep Finset.univ (fun _ : Dev nD => (BI.emp : sProp 𝕄)) from by rw [BI.bigSep_emp_const])
  iempintro

-- How a run ends at a core: the stacked result at the last valuation, every argument array as launched.
abbrev ended (c : Dev nD) (s : MemSt nD τ sig (Elt F)) : Prop :=
  s.mem ((c.tc : Thread nD τ).loc main_v36) = V7 m (outs m) c main_v36
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)

-- The launch: four host stretches with the three regions between them, each region entered from and left at the valuations of PData.
theorem run_of : θ_run defs (onTc (τ := τ) (main (F := F))) ⟨m, fun _ => 0, ρ⟩ (fun r => ∀ c : Dev nD, ended m c r.2) := by
  refine Pipeline.θ_run_regions_kit_dev (pcfgs (F := F)) adm (pdats m) () cellOf_inj (emb₁ : Emb (UR sig nD τ) 𝕄) defs₀ Variants.none L lv m ρ main
    (segs m (outs m) Variants.none L lv (fun _ c => R c) () (pdats m) (reg0 m) (reg1 m) (reg2 m))
    (fun c Q => by
      rewrite [main_chain c, Pipeline.Seg.run_eq_chain,
        show (segs m (outs m) Variants.none L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (fun _ => 0) (fun _ _ => rfl) (fun _ => (BI.emp : sProp 𝕄)) launchElt launchElt_own
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (by iintro ⟨-, HO⟩; iexact HO)⟩)
    (hinit := ?_) (QY := ended m)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      have hr := fun (b : Ref sig .tc) hb => h (Proc.devRef .tc b) (Finset.mem_filter.mpr ⟨StableHlo.devRef_mem_tcRefs b, hb⟩)
      exact ⟨hr main_v36 (by decide),
        (hr main_arg0 (by decide)).trans (V7_main_arg0 m (outs m) c),
        (hr main_arg1 (by decide)).trans (V7_main_arg1 m (outs m) c),
        (hr main_arg2 (by decide)).trans (V7_main_arg2 m (outs m) c),
        (hr main_arg3 (by decide)).trans (V7_main_arg3 m (outs m) c),
        (hr main_arg4 (by decide)).trans (V7_main_arg4 m (outs m) c),
        (hr main_arg5 (by decide)).trans (V7_main_arg5 m (outs m) c),
        (hr main_arg6 (by decide)).trans (V7_main_arg6 m (outs m) c),
        (hr main_arg7 (by decide)).trans (V7_main_arg7 m (outs m) c),
        (hr main_arg8 (by decide)).trans (V7_main_arg8 m (outs m) c),
        (hr main_arg9 (by decide)).trans (V7_main_arg9 m (outs m) c),
        (hr main_arg10 (by decide)).trans (V7_main_arg10 m (outs m) c),
        (hr main_arg11 (by decide)).trans (V7_main_arg11 m (outs m) c),
        (hr main_arg12 (by decide)).trans (V7_main_arg12 m (outs m) c),
        (hr main_arg13 (by decide)).trans (V7_main_arg13 m (outs m) c),
        (hr main_arg14 (by decide)).trans (V7_main_arg14 m (outs m) c),
        (hr main_arg15 (by decide)).trans (V7_main_arg15 m (outs m) c),
        (hr main_arg16 (by decide)).trans (V7_main_arg16 m (outs m) c),
        (hr main_arg17 (by decide)).trans (V7_main_arg17 m (outs m) c)⟩
    · iexact HSI

end Cert.KernelIdeal.Hand

end
-- ==== Proof.KI.Result.lean ====
import proofs.«428561_j53893249630457_3_alg».proof.Proof.KI.PData

noncomputable section

namespace Cert.KernelIdeal.Hand

open Cert.KernelIdeal.Gen Idealize.ShloMosaic Idealize.ShloMosaic.TcCoe

variable {F : FTy → Type} [FloatOps F]

variable (m : (ℓ : Loc nD τ sig) → Buf (Elt F) ℓ)

theorem V6_res2 (c : Dev nD) : V6 m (outs m) c main_v32 = res2 m c := by
  show Function.update (V5 m (outs m) c) (Proc.devRef .tc main_v32) (outs m 6 main_v32 c) (Proc.devRef .tc main_v32) = _
  rw [Function.update_self, outs_v32]

theorem V6_res1 (c : Dev nD) : V6 m (outs m) c main_v21 = res1 m c := by
  rw [V6_of m (outs m) c main_v21 (by decide), V5_of m (outs m) c main_v21 (by decide)]
  show Function.update (V3 m (outs m) c) (Proc.devRef .tc main_v21) (outs m 4 main_v21 c) (Proc.devRef .tc main_v21) = _
  rw [Function.update_self, outs_v21]

theorem V6_res0 (c : Dev nD) : V6 m (outs m) c main_v10 = res0 m c := by
  rw [V6_of m (outs m) c main_v10 (by decide), V5_of m (outs m) c main_v10 (by decide),
    V4_of m (outs m) c main_v10 (by decide), V3_of m (outs m) c main_v10 (by decide)]
  show Function.update (V1 m c) (Proc.devRef .tc main_v10) (outs m 2 main_v10 c) (Proc.devRef .tc main_v10) = _
  rw [Function.update_self, outs_v10]

theorem result_eq (c : Dev nD) :
    (V7 m (outs m) c main_v36 : (⟨S3x16x128x256, .f32⟩ : BufTy).Contents (Elt F)) =
      concatenate S3x16x128x256 0
        [⟨S1x16x128x256, broadcastInDim S1x16x128x256 ![1, 2, 3] bcast_S16x128x256_S1x16x128x256_1_2_3 (res0 m c)⟩,
         ⟨S1x16x128x256, broadcastInDim S1x16x128x256 ![1, 2, 3] bcast_S16x128x256_S1x16x128x256_1_2_3 (res1 m c)⟩,
         ⟨S1x16x128x256, broadcastInDim S1x16x128x256 ![1, 2, 3] bcast_S16x128x256_S1x16x128x256_1_2_3 (res2 m c)⟩]
        concatenates_S1x16x128x256_S1x16x128x256_S1x16x128x256_S3x16x128x256_d0 := by
  show StableHlo.after hostOps3 (V6 m (outs m) c) (Proc.devRef .tc main_v36) = _
  after_results
  dsimp only [Matrix.cons_val]
  repeat (first
    | rw [StableHlo.unary_result]
    | (rw [StableHlo.unary_result_ne]; rotate_left; decide))
  rw [V6_res0, V6_res1, V6_res2]

end Cert.KernelIdeal.Hand

end
-- ==== Proof.KI.Payload.lean ====
import proofs.«428561_j53893249630457_3_alg».proof.Proof.KI.Body2

noncomputable section

namespace Cert.KernelIdeal.Hand

open Cert.KernelIdeal.Gen Idealize.ShloMosaic

variable {F : FTy → Type} [FloatOps F]

theorem rx_0_idx (a : Fin 1) (b : Fin 1024) (d : Fin 1024) : rx_0.idx (ValueIdx.ix3 a b d) = ValueIdx.ix3 (0 : Fin 2) b d := by
  funext k; match k with | ⟨0, _⟩ => (apply Fin.ext; simp [LoadRect.idx]) | ⟨1, _⟩ => (apply Fin.ext; simp [LoadRect.idx]) | ⟨2, _⟩ => (apply Fin.ext; simp [LoadRect.idx])

theorem rx_1_idx (a : Fin 1) (b : Fin 1024) (d : Fin 1024) : rx_1.idx (ValueIdx.ix3 a b d) = ValueIdx.ix3 (1 : Fin 2) b d := by
  funext k; match k with | ⟨0, _⟩ => (apply Fin.ext; simp [LoadRect.idx]) | ⟨1, _⟩ => (apply Fin.ext; simp [LoadRect.idx]) | ⟨2, _⟩ => (apply Fin.ext; simp [LoadRect.idx])

theorem r8_0_idx (a : Fin 1) (b : Fin 128) (d : Fin 256) : r8_0.idx (ValueIdx.ix3 a b d) = ValueIdx.ix3 (0 : Fin 2) b d := by
  funext k; match k with | ⟨0, _⟩ => (apply Fin.ext; simp [LoadRect.idx]) | ⟨1, _⟩ => (apply Fin.ext; simp [LoadRect.idx]) | ⟨2, _⟩ => (apply Fin.ext; simp [LoadRect.idx])

theorem r8_1_idx (a : Fin 1) (b : Fin 128) (d : Fin 256) : r8_1.idx (ValueIdx.ix3 a b d) = ValueIdx.ix3 (1 : Fin 2) b d := by
  funext k; match k with | ⟨0, _⟩ => (apply Fin.ext; simp [LoadRect.idx]) | ⟨1, _⟩ => (apply Fin.ext; simp [LoadRect.idx]) | ⟨2, _⟩ => (apply Fin.ext; simp [LoadRect.idx])

theorem r9_0_not_mem_r9_1 (x : r9_0.shape.Idx) : r9_0.emb x ∉ r9_1.set := by
  intro hm
  have h := (Rect.mem_set_unit.mp hm) 0
  have hx : (x 0).val < 1 := (x 0).isLt
  simp [Rect.emb_apply] at h
  omega

theorem r9_1_not_mem_r9_0 (x : r9_1.shape.Idx) : r9_1.emb x ∉ r9_0.set := by
  intro hm
  have h := (Rect.mem_set_unit.mp hm) 0
  simp [Rect.emb_apply] at h

theorem accZ_eq : accZ (F := F) = k2_pay4 := View.canon_unit_zero hz3 inb_S2x128x1024_S2x128x1024_0_0_0 _

theorem ld_accM_1 (x0 : Vec F S2x1024x1024 .f32) (x1 : Vec F S128x1024 .bf16) :
    View.ld (accM x0 x1) r9_1 = View.ld (k2_pay4 (F := F)) r9_1 := by
  funext x
  unfold accM
  show View.canon ((⟨r9_0, accB0 x0 x1⟩ : View.Piece (Elt F) S2x128x1024 .f32) :: [⟨r9w, k2_pay4 (F := F)⟩]) (r9_1.emb x) = k2_pay4 (r9_1.emb x)
  rw [View.canon_cons_of_not_mem _ _ (r9_1_not_mem_r9_0 x)]
  exact congrFun (View.canon_unit_zero hz3 inb_S2x128x1024_S2x128x1024_0_0_0 _) _

theorem accB0_eq (x0 : Vec F S2x1024x1024 .f32) (x1 : Vec F S128x1024 .bf16) :
    accB0 x0 x1 = k2_pay6 x1 (View.ld x0 rx_0) (View.ld (k2_pay4 (F := F)) r9_0) := by
  unfold accB0; rw [accZ_eq]

theorem accB1_eq (x0 : Vec F S2x1024x1024 .f32) (x1 : Vec F S128x1024 .bf16) :
    accB1 x0 x1 = k2_pay7 x1 (View.ld x0 rx_1) (View.ld (k2_pay4 (F := F)) r9_1) := by
  unfold accB1; rw [ld_accM_1]

theorem acc2_eq1 (x0 : Vec F S2x1024x1024 .f32) (x1 : Vec F S128x1024 .bf16) :
    View.ld (acc2 x0 x1) r9_1 = k2_pay7 x1 (View.ld x0 rx_1) (View.ld (k2_pay4 (F := F)) r9_1) := by
  rw [← accB1_eq]
  funext x
  unfold acc2
  show View.canon ((⟨r9_1, accB1 x0 x1⟩ : View.Piece (Elt F) S2x128x1024 .f32) :: [⟨r9_0, accB0 x0 x1⟩, ⟨r9w, k2_pay4 (F := F)⟩]) (r9_1.emb x) = accB1 x0 x1 x
  rw [View.canon_cons_emb]

theorem acc2_eq0 (x0 : Vec F S2x1024x1024 .f32) (x1 : Vec F S128x1024 .bf16) :
    View.ld (acc2 x0 x1) r9_0 = k2_pay6 x1 (View.ld x0 rx_0) (View.ld (k2_pay4 (F := F)) r9_0) := by
  rw [← accB0_eq]
  funext x
  unfold acc2
  show View.canon ((⟨r9_1, accB1 x0 x1⟩ : View.Piece (Elt F) S2x128x1024 .f32) :: [⟨r9_0, accB0 x0 x1⟩, ⟨r9w, k2_pay4 (F := F)⟩]) (r9_0.emb x) = accB0 x0 x1 x
  exact (View.canon_cons_of_not_mem (⟨r9_1, accB1 x0 x1⟩ : View.Piece (Elt F) S2x128x1024 .f32) [⟨r9_0, accB0 x0 x1⟩, ⟨r9w, k2_pay4 (F := F)⟩] (r9_0_not_mem_r9_1 x)).trans
    (View.canon_cons_emb r9_0 (accB0 x0 x1) [⟨r9w, k2_pay4 (F := F)⟩] x)

theorem out2_eq1 (x0 : Vec F S2x1024x1024 .f32) (x1 : Vec F S128x1024 .bf16) (x2 : Vec F S1024x256 .f32) (x3 : Vec F S1x256 .f32) (x4 : Vec F S256x256 .f32) (x5 : Vec F S1x256 .f32) :
    View.ld (out2 x0 x1 x2 x3 x4 x5) r8_1
      = k2_pay1 (k2_pay3 (k2_pay7 x1 (View.ld x0 rx_1) (View.ld (k2_pay4 (F := F)) r9_1))) x2 x3 x4 x5 := by
  rw [← acc2_eq1]
  funext x
  unfold out2
  show View.canon ((⟨r8_1, outB1 x0 x1 x2 x3 x4 x5⟩ : View.Piece (Elt F) S2x128x256 .f32) :: [⟨r8_0, outB0 x0 x1 x2 x3 x4 x5⟩]) (r8_1.emb x) = outB1 x0 x1 x2 x3 x4 x5 x
  rw [View.canon_cons_emb]

theorem r8_0_not_mem_r8_1 (x : r8_0.shape.Idx) : r8_0.emb x ∉ r8_1.set := by
  intro hm
  have h := (Rect.mem_set_unit.mp hm) 0
  have hx : (x 0).val < 1 := (x 0).isLt
  simp [Rect.emb_apply] at h
  omega

theorem out2_eq0 (x0 : Vec F S2x1024x1024 .f32) (x1 : Vec F S128x1024 .bf16) (x2 : Vec F S1024x256 .f32) (x3 : Vec F S1x256 .f32) (x4 : Vec F S256x256 .f32) (x5 : Vec F S1x256 .f32) :
    View.ld (out2 x0 x1 x2 x3 x4 x5) r8_0
      = k2_pay2 (k2_pay6 x1 (View.ld x0 rx_0) (View.ld (k2_pay4 (F := F)) r9_0)) x2 x3 x4 x5 := by
  rw [← acc2_eq0]
  funext x
  unfold out2
  show View.canon ((⟨r8_1, outB1 x0 x1 x2 x3 x4 x5⟩ : View.Piece (Elt F) S2x128x256 .f32) :: [⟨r8_0, outB0 x0 x1 x2 x3 x4 x5⟩]) (r8_0.emb x) = outB0 x0 x1 x2 x3 x4 x5 x
  exact (View.canon_cons_of_not_mem (⟨r8_1, outB1 x0 x1 x2 x3 x4 x5⟩ : View.Piece (Elt F) S2x128x256 .f32) [⟨r8_0, outB0 x0 x1 x2 x3 x4 x5⟩] (r8_0_not_mem_r8_1 x)).trans
    (View.canon_cons_emb r8_0 (outB0 x0 x1 x2 x3 x4 x5) [] x)

end Cert.KernelIdeal.Hand

end
-- ==== Proof.KI.ValueLib.lean ====
import proofs.«428561_j53893249630457_3_alg».proof.Proof.KI.PData
import proofs.«428561_j53893249630457_3_alg».proof.Proof.KI.Payload
import Idealize.ShloMosaic.Lib.ValueLayout
import Idealize.ShloMosaic.Lib.StableHlo.Predicate
import Idealize.ShloMosaic.PureOps.Ideal.Laws

noncomputable section

namespace Cert.KernelIdeal.Hand

open Cert.KernelIdeal.Gen Idealize.ShloMosaic Idealize.ShloMosaic.TcCoe Idealize.ShloMosaic.ValueIdx

/-- A fact at every axis of a rank-3 (rank-2) index, from the fact at each axis. -/
theorem fin3 {P : Fin 3 → Prop} (h0 : P 0) (h1 : P 1) (h2 : P 2) (a : Fin 3) : P a := by
  match a with
  | ⟨0, _⟩ => exact h0
  | ⟨1, _⟩ => exact h1
  | ⟨2, _⟩ => exact h2
theorem fin2 {P : Fin 2 → Prop} (h0 : P 0) (h1 : P 1) (a : Fin 2) : P a := by
  match a with
  | ⟨0, _⟩ => exact h0
  | ⟨1, _⟩ => exact h1

section Blocks
variable {κ : Kind} (b : Ref sig κ) {Val : EltTy → Type} (X : b.ty.Contents Val)

/-- A buffer read through a unit-stride rectangle of its array, at `y`, is the buffer at the rectangle's offsets plus `y`. -/
theorem read_unit_apply {off size : Fin b.ty.shape.rank → ℕ} (inb : ∀ a, off a + size a ≤ b.ty.shape.size a)
    (y : (⟨b.ty.shape.rank, size⟩ : Shape).Idx) (k : b.ty.shape.Idx) (hk : ∀ a, (k a).val = off a + (y a).val) :
    ((View.whole b).slice (Rect.unit off size inb)).read Val X y = X k :=
  congrArg X (funext fun a => Fin.ext (by show off a + 1 * (y a).val = (k a).val; rw [hk a, Nat.one_mul]))

/-- A block of the array's own sizes at block index zero is the array. -/
theorem read_unit_whole (ix : Fin b.ty.shape.rank → ℕ) (h0 : ∀ a, ix a = 0)
    (inb : ∀ a, ix a * b.ty.shape.size a + b.ty.shape.size a ≤ b.ty.shape.size a) :
    ((View.whole b).slice (Rect.unit (fun a => ix a * b.ty.shape.size a) b.ty.shape.size inb)).read Val X = X :=
  funext fun y => read_unit_apply b X inb y y fun a => by rw [h0 a, Nat.zero_mul, Nat.zero_add]

/-- An index each of whose coordinates is in a block's range on its axis is under the block. -/
theorem mem_unit {off size : Fin b.ty.shape.rank → ℕ} (inb : ∀ a, off a + size a ≤ b.ty.shape.size a) (i : b.ty.shape.Idx)
    (h : ∀ a, off a ≤ (i a).val ∧ (i a).val < off a + size a) : i ∈ ((View.whole b).slice (Rect.unit off size inb)).set := by
  rw [View.set_slice_whole, Rect.mem_set_unit]; exact h

end Blocks

section Carried
variable {F : FTy → Type} [FloatOps F] (m : (ℓ : Loc nD τ sig) → Buf (Elt F) ℓ) (outs : Outs (F := F)) (c : Dev nD) (r : Ref sig .tc)

/-- An array that nothing before a region's entry writes (each membership decided) is, there, as launched. -/
theorem V1_arg (h0 : r ∉ hostOps0_W := by decide) : V1 m c r = m ((c : Thread nD τ).loc r) := (V1_of m c r h0).trans rfl
theorem V2_arg (h1 : r ∉ ([main_v10] : List (Ref sig .tc)) := by decide) (h0 : r ∉ hostOps0_W := by decide) : V2 m outs c r = m ((c : Thread nD τ).loc r) :=
  (V2_of m outs c r h1).trans (V1_arg m c r h0)
theorem V3_arg (h2 : r ∉ hostOps1_W := by decide) (h1 : r ∉ ([main_v10] : List (Ref sig .tc)) := by decide)
    (h0 : r ∉ hostOps0_W := by decide) :
    V3 m outs c r = m ((c : Thread nD τ).loc r) :=
  (V3_of m outs c r h2).trans (V2_arg m outs c r h1 h0)
theorem V4_arg (h3 : r ∉ ([main_v21] : List (Ref sig .tc)) := by decide) (h2 : r ∉ hostOps1_W := by decide)
    (h1 : r ∉ ([main_v10] : List (Ref sig .tc)) := by decide) (h0 : r ∉ hostOps0_W := by decide) : V4 m outs c r = m ((c : Thread nD τ).loc r) :=
  (V4_of m outs c r h3).trans (V3_arg m outs c r h2 h1 h0)
theorem V5_arg (h4 : r ∉ hostOps2_W := by decide) (h3 : r ∉ ([main_v21] : List (Ref sig .tc)) := by decide)
    (h2 : r ∉ hostOps1_W := by decide) (h1 : r ∉ ([main_v10] : List (Ref sig .tc)) := by decide) (h0 : r ∉ hostOps0_W := by decide) : V5 m outs c r = m ((c : Thread nD τ).loc r) :=
  (V5_of m outs c r h4).trans (V4_arg m outs c r h3 h2 h1 h0)

end Carried

/-- Batch `i 0` of a result array is in the block of `r` batches numbered `i 0 / r`; the other two axes are whole. -/
theorem batch_block (r : ℕ) (hr : 0 < r) (ix : Fin 3 → ℕ) (i : S16x128x256.Idx) (h0 : ix 0 = (i 0).val / r) (h1 : ix 1 = 0)
    (h2 : ix 2 = 0) (a : Fin 3) :
    ix a * (![r, 128, 256] : Fin 3 → ℕ) a ≤ (i a).val ∧ (i a).val < ix a * (![r, 128, 256] : Fin 3 → ℕ) a + (![r, 128, 256] : Fin 3 → ℕ) a := by
  match a with
  | ⟨0, _⟩ =>
    show ix 0 * r ≤ (i 0).val ∧ (i 0).val < ix 0 * r + r
    rw [h0]; exact ⟨Nat.div_mul_le_self _ _, Nat.lt_div_mul_add hr⟩
  | ⟨1, _⟩ =>
    show ix 1 * 128 ≤ (i 1).val ∧ (i 1).val < ix 1 * 128 + 128
    have : (i 1).val < 128 := (i 1).isLt; rw [h1]; omega
  | ⟨2, _⟩ =>
    show ix 2 * 256 ≤ (i 2).val ∧ (i 2).val < ix 2 * 256 + 256
    have : (i 2).val < 256 := (i 2).isLt; rw [h2]; omega

/-- A `[B, C, H, W]` array with its last two axes flattened reads, at position `j`, row `j / W` and column `j % W`. -/
theorem flat_apply {α : Type} {B C H W N : ℕ} (hN : N = H * W) (hW : 0 < W) (x : (⟨4, ![B, C, H, W]⟩ : Shape).Idx → α)
    (h : (⟨4, ![B, C, H, W]⟩ : Shape).ShapeCasts ⟨3, ![B, C, N]⟩) (b : Fin B) (c : Fin C) (j : Fin N) :
    shapeCast ⟨3, ![B, C, N]⟩ x h (ix3 b c j)
      = x (ix4 b c ⟨j.val / W, Nat.div_lt_of_lt_mul (by rw [Nat.mul_comm, ← hN]; exact j.isLt)⟩ ⟨j.val % W, Nat.mod_lt _ hW⟩) :=
  shapeCast_apply x h _ _ (by
    rw [Shape.rowMajor_val_four, Shape.rowMajor_val_three]
    show ((b.val * C + c.val) * H + j.val / W) * W + j.val % W = (b.val * C + c.val) * N + j.val
    rw [show (b.val * C + c.val) * N = (b.val * C + c.val) * H * W by rw [hN, Nat.mul_assoc],
      Nat.add_mul ((b.val * C + c.val) * H), Nat.add_assoc, Nat.div_add_mod'])

/-- The one-hot table of `n` positions: the patch words down the rows compared with the positions along the columns. -/
abbrev onehot {F : FTy → Type} [FloatOps F] {n : ℕ} (idx : IVec S128 32) (h1 : S128x1.BroadcastsInDim ⟨2, ![128, n]⟩ ![0, 1])
    (h2 : (⟨2, ![1, n]⟩ : Shape).BroadcastsInDim ⟨2, ![128, n]⟩ ![0, 1]) (hc : (⟨1, ![n]⟩ : Shape).ShapeCasts ⟨2, ![1, n]⟩) :
    FVec F ⟨2, ![128, n]⟩ .bf16 :=
  uitofp .bf16 (cmpi .eq (broadcastInDim ⟨2, ![128, n]⟩ ![0, 1] h1 (shapeCast S128x1 idx shapeCasts_S128_S128x1))
    (broadcastInDim ⟨2, ![128, n]⟩ ![0, 1] h2 (shapeCast ⟨2, ![1, n]⟩ (iotaInDim ⟨1, ![n]⟩ 32 0) hc)))

/-- At `(p, j)` it is one where patch `p`'s word has value `j`, else zero: a position below 2³² is the value of exactly one word. -/
theorem onehot_apply {n : ℕ} (hn : n ≤ 2 ^ 32) (idx : IVec S128 32) (h1 : S128x1.BroadcastsInDim ⟨2, ![128, n]⟩ ![0, 1])
    (h2 : (⟨2, ![1, n]⟩ : Shape).BroadcastsInDim ⟨2, ![128, n]⟩ ![0, 1]) (hc : (⟨1, ![n]⟩ : Shape).ShapeCasts ⟨2, ![1, n]⟩)
    (p : Fin 128) (j : Fin n) :
    onehot (F := Ideal) idx h1 h2 hc (ix2 p j) = if (idx (ix1 p)).toNat = j.val then (1 : EReal) else 0 := by
  have ea : broadcastInDim ⟨2, ![128, n]⟩ ![0, 1] h1 (shapeCast S128x1 idx shapeCasts_S128_S128x1) (ix2 p j) = idx (ix1 p) :=
    (StableHlo.Predicate.bcast_of_col h1 _ p j).trans (shapeCast_apply idx _ _ _ (by
      rw [Shape.rowMajor_val_one, Shape.rowMajor_val_two]; show p.val = p.val * 1 + 0; omega))
  have eb : broadcastInDim ⟨2, ![128, n]⟩ ![0, 1] h2 (shapeCast ⟨2, ![1, n]⟩ (iotaInDim ⟨1, ![n]⟩ 32 0) hc) (ix2 p j)
      = BitVec.ofNat 32 j.val :=
    (StableHlo.Predicate.bcast_of_row h2 _ p j).trans (shapeCast_a_1a_apply _ hc 0 j)
  show (((IntOp.cmpi .eq _ _).toNat : ℝ) : EReal) = _
  rw [ea, eb]
  have hj : j.val < 2 ^ 32 := lt_of_lt_of_le j.isLt hn
  have hiff : idx (ix1 p) = BitVec.ofNat 32 j.val ↔ (idx (ix1 p)).toNat = j.val := by
    rw [← BitVec.toNat_inj, BitVec.toNat_ofNat, Nat.mod_eq_of_lt hj]
  by_cases h : (idx (ix1 p)).toNat = j.val
  · rw [if_pos h, StableHlo.Predicate.cmpi_eq_iff.mpr (hiff.mpr h)]
    show (((1 : ℕ) : ℝ) : EReal) = 1
    rw [Nat.cast_one, EReal.coe_one]
  · rw [if_neg h, eq_zero_of_ne_one fun hc => h (hiff.mp (StableHlo.Predicate.cmpi_eq_iff.mp hc))]
    show (((0 : ℕ) : ℝ) : EReal) = 0
    rw [Nat.cast_zero, EReal.coe_zero]

end Cert.KernelIdeal.Hand

end
-- ==== Proof.Head.lean ====
import proofs.«428561_j53893249630457_3_alg».proof.Proof.Gen.KernelIdeal.Skeleton
import Idealize.ShloMosaic.Lib.ValueLayout
import Idealize.ShloMosaic.Lib.StackMember
import Idealize.ShloMosaic.Lib.StableHlo.Predicate

noncomputable section

namespace Cert.Hand.Head

open Idealize.ShloMosaic Idealize.ShloMosaic.ValueIdx Cert.KernelIdeal Cert.KernelIdeal.Gen

/-- Zero times anything is zero on the extended reals, so a sum against the indicator of one position keeps one term. -/
theorem sum_onehot {n : ℕ} (t : ℕ) (ht : t < n) (g : Fin n → EReal) :
    ∑ j : Fin n, (if t = j.val then (1 : EReal) else 0) * g j = g ⟨t, ht⟩ := by
  rw [Finset.sum_eq_single (⟨t, ht⟩ : Fin n) (fun j _ hj => by rw [if_neg fun h => hj (Fin.ext h.symm), zero_mul])
    fun h => absurd (Finset.mem_univ _) h, if_pos rfl, one_mul]

/-- A word below 2^31 is not negative: the wrap-around select keeps it, and read signed it is itself. -/
theorem idx_word (v a : BitVec 32) (hv : v.toNat < 2 ^ 31) :
    (Scalar.select (IntOp.cmpi .slt v 0#32) a v).toInt.toNat = v.toNat := by
  rw [eq_zero_of_ne_one fun h => Nat.not_lt_zero _ ((StableHlo.Predicate.slt_iff_toNat hv (by decide)).1 h), select_zero,
    BitVec.toInt_eq_toNat_of_lt (by omega)]
  rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The constant zero array under an identity reshape is zero everywhere. -/
theorem zero_apply {s : Shape} (h : s.ShapeCasts s) (i : s.Idx) :
    shapeCast s (broadcast s (Scalar.ofBits (F := Ideal) .f32 0x00000000#32)) h i = 0 := by
  rw [shapeCast_self]
  exact Ideal.ofBits_zero_f32

/-- A plain product into zero at (p, c): the sum over the shared axis. -/
theorem mm_nn_apply {m k n : ℕ} (a : FVec Ideal ⟨2, ![m, k]⟩ .bf16) (b : FVec Ideal ⟨2, ![k, n]⟩ .bf16) (p : Fin m) (c : Fin n) :
    matmul (DotDims.plain m k n) none a b (constant ⟨2, ![m, n]⟩ .f32 0x00000000#32) (ix2 p c)
      = ∑ j : Fin k, a (ix2 p j) * b (ix2 j c) :=
  (Ideal.matmul_constant_zero_apply _ none a b _).trans
    ((Ideal.dotGeneral_apply _ none _ a b _).symm.trans (StackMember.dotGeneral_plain_apply none a b p c))

/-- The product with the right operand's rows against the left operand's rows, into zero, at (p, c). -/
theorem mm_nt_apply {m k n : ℕ} (a : FVec Ideal ⟨2, ![m, k]⟩ .bf16) (b : FVec Ideal ⟨2, ![n, k]⟩ .bf16) (p : Fin m) (c : Fin n) :
    matmul (DotDims.transposedRhs m k n) none a b (constant ⟨2, ![m, n]⟩ .f32 0x00000000#32) (ix2 p c)
      = ∑ j : Fin k, a (ix2 p j) * b (ix2 c j) := by
  refine (Ideal.matmul_constant_zero_apply _ none a b _).trans ?_
  rw [← Equiv.sum_comp (contrEquiv1 (DotDims.transposedRhs m k n) k rfl rfl).symm]
  refine Finset.sum_congr rfl fun j _ => ?_
  have hj := contrEquiv1_symm_val (DotDims.transposedRhs m k n) k rfl rfl j
  have el : (DotDims.transposedRhs m k n).lhsIdx (ix2 p c) ((contrEquiv1 _ k rfl rfl).symm j) = ix2 p j :=
    funext fun ax => Fin.ext (by
      match ax with
      | ⟨0, _⟩ => rfl
      | ⟨1, _⟩ => exact hj)
  have er : (DotDims.transposedRhs m k n).rhsIdx (ix2 p c) ((contrEquiv1 _ k rfl rfl).symm j) = ix2 c j :=
    funext fun ax => Fin.ext (by
      match ax with
      | ⟨0, _⟩ => rfl
      | ⟨1, _⟩ => exact hj)
  rw [el, er]

/-- One accumulation step at (0, p, c): what was there plus row p of the left block against row c of the right block. -/
theorem acc_apply {m k n : ℕ} (oh : FVec Ideal ⟨2, ![m, k]⟩ .bf16) (f : FVec Ideal ⟨3, ![1, n, k]⟩ .f32)
    (acc : FVec Ideal ⟨3, ![1, m, n]⟩ .f32) (h1 : (⟨2, ![m, k]⟩ : Shape).ShapeCasts ⟨2, ![m, k]⟩)
    (h2 : (⟨3, ![1, n, k]⟩ : Shape).ShapeCasts ⟨2, ![n, k]⟩) (h3 : (⟨3, ![1, m, n]⟩ : Shape).ShapeCasts ⟨2, ![m, n]⟩)
    (h4 : (⟨2, ![m, n]⟩ : Shape).ShapeCasts ⟨3, ![1, m, n]⟩) (p : Fin m) (c : Fin n) :
    shapeCast ⟨3, ![1, m, n]⟩ (addf (shapeCast ⟨2, ![m, n]⟩ acc h3)
        (matmul (DotDims.transposedRhs m k n) none (shapeCast ⟨2, ![m, k]⟩ oh h1)
          (truncf .bf16 (shapeCast ⟨2, ![n, k]⟩ f h2) bitsLt_bf16_f32) (constant ⟨2, ![m, n]⟩ .f32 0x00000000#32)))
      h4 (ix3 (0 : Fin 1) p c)
      = acc (ix3 (0 : Fin 1) p c) + ∑ j : Fin k, oh (ix2 p j) * f (ix3 (0 : Fin 1) c j) := by
  rw [shapeCast_ab_1ab_apply, addf_apply, shapeCast_1ab_ab_apply, mm_nt_apply, shapeCast_self]
  exact congrArg (_ + ·) (Finset.sum_congr rfl fun j _ => congrArg (_ * ·)
    ((truncf_apply (φ := .f32) (ψ := .bf16) _ bitsLt_bf16_f32 _).trans (shapeCast_1ab_ab_apply f h2 c j)))

/-- A dense layer over 128 rows of any width: the product with the weights plus the bias row. -/
def layerBlk {k : ℕ} (X : FVec Ideal ⟨2, ![128, k]⟩ .bf16) (w : FVec Ideal ⟨2, ![k, 256]⟩ .f32) (br : FVec Ideal S1x256 .f32) :
    FVec Ideal S128x256 .f32 :=
  addf (matmul (DotDims.plain 128 k 256) none X (truncf .bf16 w bitsLt_bf16_f32) (constant S128x256 .f32 0x00000000#32))
    (broadcastTo S128x256 (shapeCast S1x256 br shapeCasts_S1x256_S1x256) broadcasts_S1x256_S128x256)

/-- Two dense layers with the clip at zero between them. -/
def linBlk {k : ℕ} (X : FVec Ideal ⟨2, ![128, k]⟩ .bf16) (w1 : FVec Ideal ⟨2, ![k, 256]⟩ .f32) (b1r : FVec Ideal S1x256 .f32)
    (w2 : FVec Ideal S256x256 .f32) (b2r : FVec Ideal S1x256 .f32) : FVec Ideal S128x256 .f32 :=
  layerBlk (truncf .bf16 (maximumf (layerBlk X w1 b1r) (broadcast S128x256 (Scalar.ofBits .f32 0x00000000#32)))
    bitsLt_bf16_f32) w2 b2r

/-- Each row divided by the root of its sum of squares plus the constant, with a leading unit axis. -/
def normBlk (y : FVec Ideal S128x256 .f32) : FVec Ideal S1x128x256 .f32 :=
  shapeCast S1x128x256 (divf y (broadcastTo S128x256 (addf (sqrt (shapeCast S128x1
    (multiReduction .add [1] S128 (mulf y y) 0x00000000#32 reduces_S128x256_S128 (.inl rfl) rfl) shapeCasts_S128_S128x1))
    (broadcast S128x1 (Scalar.ofBits .f32 0x33D6BF95#32))) broadcasts_S128x1_S128x256)) shapeCasts_S128x256_S1x128x256

theorem layer_apply {k : ℕ} (X : FVec Ideal ⟨2, ![128, k]⟩ .bf16) (w : FVec Ideal ⟨2, ![k, 256]⟩ .f32)
    (br : FVec Ideal S1x256 .f32) (p : Fin 128) (n : Fin 256) :
    layerBlk X w br (ix2 p n) = (∑ j : Fin k, X (ix2 p j) * w (ix2 j n)) + br (ix2 (0 : Fin 1) n) := by
  unfold layerBlk
  rw [addf_apply, mm_nn_apply, broadcastTo_1b_ab_apply, shapeCast_self]
  rfl

theorem norm_apply (y : FVec Ideal S128x256 .f32) (p : Fin 128) (n : Fin 256) :
    normBlk y (ix3 (0 : Fin 1) p n)
      = Ideal.div (y (ix2 p n)) (Ideal.sqrt (∑ k : Fin 256, y (ix2 p k) * y (ix2 p k)) + Ideal.ofBits .f32 0x33D6BF95#32) := by
  unfold normBlk
  refine (shapeCast_ab_1ab_apply _ _ 0 p n).trans ((divf_apply _ _ _).trans (congrArg₂ Ideal.div rfl ?_))
  refine (broadcastTo_a1_ab_apply _ _ p n).trans ((addf_apply _ _ _).trans (congrArg₂ (· + ·) ?_ rfl))
  show Ideal.sqrt (shapeCast S128x1 _ shapeCasts_S128_S128x1 (ix2 p (0 : Fin 1))) = _
  refine congrArg Ideal.sqrt ((shapeCast_a_a1_apply _ _ p 0).trans ?_)
  refine (Ideal.multiReduction_add_single (mulf y y) _ reduces_S128x256_S128 (.inl rfl) rfl (ix1 p)).trans ?_
  exact Finset.sum_congr rfl fun k _ => congrArg (mulf y y) (eq_ix2 _)

/-- The head of one row of any width: two layers with the clip between them, then the normalisation. -/
def hid {k : ℕ} (x : Fin k → EReal) (w1 : FVec Ideal ⟨2, ![k, 256]⟩ .f32) (c1 : Fin 256 → EReal) (m : Fin 256) : EReal :=
  max ((∑ j : Fin k, x j * w1 (ix2 j m)) + c1 m) (Ideal.ofBits .f32 0x00000000#32)

def lin {k : ℕ} (x : Fin k → EReal) (w1 : FVec Ideal ⟨2, ![k, 256]⟩ .f32) (c1 : Fin 256 → EReal)
    (w2 : FVec Ideal S256x256 .f32) (c2 : Fin 256 → EReal) (n : Fin 256) : EReal :=
  (∑ m : Fin 256, hid x w1 c1 m * w2 (ix2 m n)) + c2 n

def head {k : ℕ} (x : Fin k → EReal) (w1 : FVec Ideal ⟨2, ![k, 256]⟩ .f32) (c1 : Fin 256 → EReal)
    (w2 : FVec Ideal S256x256 .f32) (c2 : Fin 256 → EReal) (n : Fin 256) : EReal :=
  Ideal.div (lin x w1 c1 w2 c2 n)
    (Ideal.sqrt (∑ m : Fin 256, lin x w1 c1 w2 c2 m * lin x w1 c1 w2 c2 m) + Ideal.ofBits .f32 0x33D6BF95#32)

/-- At (0, p, n) the block is the head of row p of the accumulator, the bias rows read as vectors. -/
theorem head_apply {k : ℕ} (S : FVec Ideal ⟨3, ![1, 128, k]⟩ .f32) (hS : (⟨3, ![1, 128, k]⟩ : Shape).ShapeCasts ⟨2, ![128, k]⟩)
    (w1 : FVec Ideal ⟨2, ![k, 256]⟩ .f32) (b1r : FVec Ideal S1x256 .f32) (w2 : FVec Ideal S256x256 .f32)
    (b2r : FVec Ideal S1x256 .f32) (p : Fin 128) (n : Fin 256) (x : Fin k → EReal) (c1 c2 : Fin 256 → EReal)
    (hx : ∀ j, S (ix3 (0 : Fin 1) p j) = x j) (h1 : ∀ m, b1r (ix2 (0 : Fin 1) m) = c1 m)
    (h2 : ∀ m, b2r (ix2 (0 : Fin 1) m) = c2 m) :
    normBlk (linBlk (truncf .bf16 (shapeCast ⟨2, ![128, k]⟩ S hS) bitsLt_bf16_f32) w1 b1r w2 b2r) (ix3 (0 : Fin 1) p n)
      = head x w1 c1 w2 c2 n := by
  have hy : ∀ m, linBlk (truncf .bf16 (shapeCast ⟨2, ![128, k]⟩ S hS) bitsLt_bf16_f32) w1 b1r w2 b2r (ix2 p m)
      = lin x w1 c1 w2 c2 m := fun m => by
    unfold linBlk lin hid
    rw [layer_apply, h2 m]
    refine congrArg (· + _) (Finset.sum_congr rfl fun j _ => congrArg (· * _) ?_)
    refine (truncf_apply (φ := .f32) (ψ := .bf16) _ bitsLt_bf16_f32 _).trans ((maximumf_apply _ _ _).trans ?_)
    rw [layer_apply, h1 j]
    exact congrArg (max · _) (congrArg (· + _) (Finset.sum_congr rfl fun i _ => congrArg (· * _)
      ((truncf_apply (φ := .f32) (ψ := .bf16) _ bitsLt_bf16_f32 _).trans ((shapeCast_1ab_ab_apply S hS p i).trans (hx i)))))
  unfold head
  rw [norm_apply, hy n]
  simp only [hy]

variable {B H C P : ℕ}
  (w : GatherDims.WF ⟨3, ![B, H, C]⟩ ⟨2, ![P, 1]⟩ ⟨3, ![B, P, C]⟩ [0, 2] [1] [] [1] [] 1 ![B, 1, C])

/-- The dimension numbers of a gather of rows: one start index a row, the position axis collapsed. -/
def rowGather : GatherDims ⟨3, ![B, H, C]⟩ ⟨2, ![P, 1]⟩ ⟨3, ![B, P, C]⟩ :=
  ⟨[0, 2], [1], [], [], [1], 1, ![B, 1, C], w⟩

/-- A gather of rows at (b, p, c), row p's start index reading as t inside the range: the operand at (b, t, c). -/
theorem gather_row_apply {α : Type} (x : (⟨3, ![B, H, C]⟩ : Shape).Idx → α) (s : IVec ⟨2, ![P, 1]⟩ 32)
    (b : Fin B) (p : Fin P) (c : Fin C) (t : Fin H) (ht : (s (ix2 p (0 : Fin 1))).toInt.toNat = t.val) :
    Host.gather (rowGather w) x s (ix3 b p c) = x (ix3 b t c) := by
  unfold Host.gather
  refine congrArg x (funext fun a => Fin.ext ?_)
  match a with
  | ⟨0, _⟩ => exact Nat.zero_add b.val
  | ⟨1, _⟩ =>
    have hsi : (rowGather w).siIdx (ix3 b p c) ⟨0, Nat.one_pos⟩ = ix2 p (0 : Fin 1) := eq_ix2 _
    show min (s ((rowGather w).siIdx (ix3 b p c) ⟨0, Nat.one_pos⟩)).toInt.toNat (H - 1) = t.val
    rw [hsi, ht]
    exact Nat.min_eq_left (Nat.le_pred_of_lt t.isLt)
  | ⟨2, _⟩ => exact Nat.zero_add c.val

end Cert.Hand.Head

end
-- ==== Proof.Level0.lean ====
import proofs.«428561_j53893249630457_3_alg».proof.Proof.Gen.KernelIdeal.Skeleton
import proofs.«428561_j53893249630457_3_alg».proof.Proof.Gen.ReferenceIdeal.Read
import proofs.«428561_j53893249630457_3_alg».proof.Proof.Head

noncomputable section

namespace Cert.Hand.Level0

open Idealize.ShloMosaic Idealize.ShloMosaic.ValueIdx Cert.KernelIdeal Cert.ReferenceIdeal.Read

/-- Channel c of the feature row at flat position h of batch b. -/
def row (feat : FVec Ideal S16x256x128x128 .f32) (b : Fin 16) (h : Fin 16384) (c : Fin 256) : EReal :=
  feat (ix4 b c ⟨h.val / 128, by have := h.isLt; omega⟩ ⟨h.val % 128, Nat.mod_lt _ (by decide)⟩)

/-- The gathered rows at (b, p, c): channel c of the feature row at position idx p. -/
theorem ref_gather_apply (feat : FVec Ideal S16x256x128x128 .f32) (idx : IVec S128 32)
    (hidx : ∀ j : S128.Idx, (idx j).toNat < 16384) (b : Fin 16) (p : Fin 128) (c : Fin 256) :
    val_main_v8 (F := Ideal) feat idx (ix3 b p c) = row feat b ⟨(idx (ix1 p)).toNat, hidx (ix1 p)⟩ c := by
  have ht := hidx (ix1 p)
  have e : idx_main_v7 (ix2 p (0 : Fin 1)) = ix1 p := eq_ix1 _
  unfold val_main_v8 row
  refine (Head.gather_row_apply _ _ _ b p c ⟨(idx (ix1 p)).toNat, ht⟩ ?_).trans ?_
  · rw [val_main_v7_apply, e, val_main_v6_apply, val_main_v3_apply, val_main_v2_apply, val_main_c_apply]
    exact Head.idx_word _ _ (by omega)
  rw [val_main_v1_apply, val_main_v0_apply]
  refine congrArg feat (funext fun a => Fin.ext ?_)
  have hb := b.isLt
  have hc := c.isLt
  match a with
  | ⟨0, _⟩ => show ((b.val * 16384 + (idx (ix1 p)).toNat) * 256 + c.val) / 4194304 = b.val; omega
  | ⟨1, _⟩ => show ((b.val * 16384 + (idx (ix1 p)).toNat) * 256 + c.val) % 256 = c.val; omega
  | ⟨2, _⟩ => show ((b.val * 16384 + (idx (ix1 p)).toNat) * 256 + c.val) / 32768 % 128 = (idx (ix1 p)).toNat / 128; omega
  | ⟨3, _⟩ => show ((b.val * 16384 + (idx (ix1 p)).toNat) * 256 + c.val) / 256 % 128 = (idx (ix1 p)).toNat % 128; omega

/-- The reference's stage at (b, p, n): the head of the gathered row. -/
theorem ref_head_apply (feat : FVec Ideal S16x256x128x128 .f32) (idx : IVec S128 32) (w1 : FVec Ideal S256x256 .f32)
    (b1 : FVec Ideal S256 .f32) (w2 : FVec Ideal S256x256 .f32) (b2 : FVec Ideal S256 .f32) (b : Fin 16) (p : Fin 128) (n : Fin 256) :
    val_main_v25 (F := Ideal) feat idx w1 b1 w2 b2 (ix3 b p n)
      = Head.head (fun c => val_main_v8 (F := Ideal) feat idx (ix3 b p c)) w1 (fun m => b1 (ix1 m)) w2 (fun m => b2 (ix1 m)) n := by
  have e1 : ∀ k, idx_main_v19 (idx_main_v20 (idx_main_v24 (ix3 b p n))) k = ix3 b p k := fun k => eq_ix3 _
  have e2 : ∀ (m : Fin 256) k, lidx_main_v14 (ix3 b p m) k = ix3 b p k := fun m k => eq_ix3 _
  have e3 : ∀ (m : Fin 256) k, ridx_main_v14 (ix3 b p m) k = ix2 k m := fun m k => eq_ix2 _
  have e4 : ∀ m : Fin 256, idx_main_v15 (idx_main_v16 (ix3 b p m)) = ix1 m := fun m => eq_ix1 _
  have e5 : ∀ (m : Fin 256) k, lidx_main_v9 (ix3 b p m) k = ix3 b p k := fun m k => eq_ix3 _
  have e6 : ∀ (m : Fin 256) k, ridx_main_v9 (ix3 b p m) k = ix2 k m := fun m k => eq_ix2 _
  have e7 : ∀ m : Fin 256, idx_main_v10 (idx_main_v11 (ix3 b p m)) = ix1 m := fun m => eq_ix1 _
  simp only [val_main_v25_apply, val_main_v24_apply, val_main_v23_apply, val_main_v21_apply, val_main_v20_apply,
    val_main_v19_apply, val_main_v22_apply, val_main_cst_1_apply, val_main_cst_apply, val_main_v18_apply,
    val_main_v17_apply, val_main_v14_apply, val_main_v16_apply, val_main_v15_apply,
    val_main_v13_apply, val_main_v12_apply, val_main_v9_apply, val_main_v11_apply, val_main_v10_apply,
    val_main_call0_v0_apply, val_main_call0_cst_apply, e1, e2, e3, e4, e5, e6, e7]
  unfold Head.head
  show Ideal.div _ (Ideal.sqrt (Ideal.ofBits .f32 0x00000000#32 + _) + _) = _
  rw [Ideal.ofBits_zero_f32, zero_add]
  rfl

/-- Row p of the accumulator is the one-hot sum over both halves of the positions, which keeps position idx p. -/
theorem bridge (feat : FVec Ideal S16x256x128x128 .f32) (idx : IVec S128 32) (w1 : FVec Ideal S256x256 .f32)
    (b1 : FVec Ideal S256 .f32) (w2 : FVec Ideal S256x256 .f32) (b2 : FVec Ideal S256 .f32)
    (hidx : ∀ j : S128.Idx, (idx j).toNat < 16384) (b : Fin 16)
    (ohLo ohHi : Vec Ideal S128x8192 .bf16) (fLo fHi : Vec Ideal S1x256x8192 .f32) (b1r b2r : Vec Ideal S1x256 .f32)
    (hohLo : ∀ (p : Fin 128) (j : Fin 8192), ohLo (ix2 p j) = if (idx (ix1 p)).toNat = j.val then (1 : EReal) else 0)
    (hohHi : ∀ (p : Fin 128) (j : Fin 8192), ohHi (ix2 p j) = if (idx (ix1 p)).toNat = 8192 + j.val then (1 : EReal) else 0)
    (hfLo : ∀ (c : Fin 256) (j : Fin 8192), fLo (ix3 (0 : Fin 1) c j)
      = feat (ix4 b c ⟨j.val / 128, by omega⟩ ⟨j.val % 128, by omega⟩))
    (hfHi : ∀ (c : Fin 256) (j : Fin 8192), fHi (ix3 (0 : Fin 1) c j)
      = feat (ix4 b c ⟨(8192 + j.val) / 128, by omega⟩ ⟨(8192 + j.val) % 128, by omega⟩))
    (hb1r : ∀ n : Fin 256, b1r (ix2 (0 : Fin 1) n) = b1 (ix1 n)) (hb2r : ∀ n : Fin 256, b2r (ix2 (0 : Fin 1) n) = b2 (ix1 n))
    (p : Fin 128) (n : Fin 256) :
    Gen.k0_pay3 (F := Ideal) (Gen.k0_pay2 ohHi fHi (Gen.k0_pay2 ohLo fLo (Gen.k0_pay1 (F := Ideal)))) w1 b1r w2 b2r (ix3 (0 : Fin 1) p n)
      = Cert.ReferenceIdeal.Read.val_main_v25 (F := Ideal) feat idx w1 b1 w2 b2 (ix3 b p n) := by
  refine (Head.head_apply _ _ w1 b1r w2 b2r p n _ _ _ (fun c => ?_) hb1r hb2r).trans
    (ref_head_apply feat idx w1 b1 w2 b2 b p n).symm
  refine Eq.trans ?_ (ref_gather_apply feat idx hidx b p c).symm
  refine (Head.acc_apply ohHi fHi _ _ _ _ _ p c).trans ?_
  refine (congrArg (· + _) ((Head.acc_apply ohLo fLo _ _ _ _ _ p c).trans
    ((congrArg (· + _) (Head.zero_apply _ _)).trans (zero_add _)))).trans ?_
  refine Eq.trans ?_ (Head.sum_onehot _ (hidx (ix1 p)) fun h => row feat b h c)
  refine Eq.trans ?_ (Fin.sum_univ_add (a := 8192) (b := 8192)
    fun h => (if (idx (ix1 p)).toNat = h.val then (1 : EReal) else 0) * row feat b h c).symm
  exact congrArg₂ (· + ·) (Finset.sum_congr rfl fun j _ => congrArg₂ (· * ·) (hohLo p j) (hfLo c j))
    (Finset.sum_congr rfl fun j _ => congrArg₂ (· * ·) (hohHi p j) (hfHi c j))

end Cert.Hand.Level0

end
-- ==== Proof.KI.Value0.lean ====
import proofs.«428561_j53893249630457_3_alg».proof.Proof.KI.ValueLib
import proofs.«428561_j53893249630457_3_alg».proof.Proof.Level0
import Idealize.ShloMosaic.Lib.QrPanel.Panel

noncomputable section

namespace Cert.KernelIdeal.Hand

open Cert.KernelIdeal.Gen Idealize.ShloMosaic Idealize.ShloMosaic.TcCoe Idealize.ShloMosaic.ValueIdx

namespace Value0

section Pieces
variable {F : FTy → Type} [FloatOps F]
variable (V : (c : Dev nD) → (b : Ref sig .tc) → Buf (Elt F) ((c : Thread nD τ).loc b))

/-- The half of the one-hot table a point multiplies by: its columns from the half's offset on. -/
abbrev ohHalf (c : Dev nD) (t : Fin cfg0.N) : Vec F S128x8192 .bf16 :=
  View.ld (iblk0 V c 1 t : Vec F S128x16384 .bf16)
    (Rect.unit (s := S128x16384) (k0_off1 (grid0.coords t)) S128x8192.size (k0_off1_inb (grid0.coords t)))

/-- A first half's selection is its one-hot columns against its feature block, added to zero. -/
theorem selFirst0_eq (c : Dev nD) (t : Fin cfg0.N) (h : t.val % 2 = 0) :
    selFirst0 V c t h = k0_pay2 (ohHalf V c t) (iblk0 V c 0 t) k0_pay1 := by
  unfold selFirst0
  rw [View.read_writes_eq_canon _ _ _ (coverS_first0 V c t h)]
  unfold fh0 firstHalf0
  dsimp only
  sl_unfold_words
  rw [View.canon_cons_unit_zero (S := S1x128x256) zeros3]
  simp only [View.readAt_eq_ld, (hs0_1 t).read_unread, (hs0_0 t).read_unread, View.ld_unit_zero (S := S1x256x8192) zeros3,
    View.readCov_unit_zero (S := S1x128x256) _ zeros3]
  rfl

/-- A last half's result block is the head applied to its own product added to the carried selection. -/
theorem outLast0_eq (c : Dev nD) (t : Fin cfg0.N) (h : t.val % 2 = 1) :
    outLast0 V c t h = k0_pay3 (k0_pay2 (ohHalf V c t) (iblk0 V c 0 t) (carried0 V c (t.val - 1)))
      (iblk0 V c 2 t) (iblk0 V c 3 t) (iblk0 V c 4 t) (iblk0 V c 5 t) := by
  unfold outLast0
  rw [View.read_writes_eq_canon _ _ _ (coverO_last0 V c t h)]
  unfold lh0 lastHalf0
  dsimp only
  sl_unfold_words
  rw [View.canon_unit_zero zeros3]
  simp only [View.readAt_eq_ld, (hs0_1 t).read_unread, (hs0_0 t).read_unread, (hs0_2 t).read_unread, (hs0_3 t).read_unread,
    (hs0_4 t).read_unread, (hs0_5 t).read_unread, hscr0.read_unread,
    View.ld_unit_zero (S := S1x256x8192) zeros3, View.ld_unit_zero (S := S1x128x256) zeros3,
    View.ld_unit_zero (S := S256x256) zeros2, View.ld_unit_zero (S := S1x256) zeros2,
    View.readCov_unit_zero (S := S1x128x256) _ zeros3]
  rfl

/-- The windows' block indices and the one-hot half's column offset at every point of the 16 × 2 grid (point = 2 · batch + half). -/
theorem idx0 : ∀ t : Fin cfg0.N,
    (win0_0.index t 0 = t.val / 2 ∧ win0_0.index t 1 = 0 ∧ win0_0.index t 2 = t.val % 2)
    ∧ (∀ a, win0_1.index t a = 0) ∧ (∀ a, win0_2.index t a = 0) ∧ (∀ a, win0_3.index t a = 0)
    ∧ (∀ a, win0_4.index t a = 0) ∧ (∀ a, win0_5.index t a = 0)
    ∧ (win0_6.index t 0 = t.val / 2 ∧ win0_6.index t 1 = 0 ∧ win0_6.index t 2 = 0)
    ∧ k0_off1 (grid0.coords t) 0 = 0 ∧ k0_off1 (grid0.coords t) 1 = 8192 * (t.val % 2) :=
  (by decide +kernel : ∀ t : Fin grid0.N, _)

/-- A point's half of the one-hot table at `(p, j)`: the table at column `8192 · (t % 2) + j`. -/
theorem ohHalf_apply (c : Dev nD) (t : Fin cfg0.N) (p : Fin 128) (j : Fin 8192) (q : Fin 16384)
    (hq : q.val = 8192 * (t.val % 2) + j.val) :
    ohHalf V c t (ix2 p j) = (V c main_v7 : S128x16384.Idx → Elt F .bf16) (ix2 p q) := by
  obtain ⟨-, z1, -, -, -, -, -, o0, o1⟩ := idx0 t
  show (iblk0 V c 1 t : Vec F S128x16384 .bf16)
    ((Rect.unit (s := S128x16384) (k0_off1 (grid0.coords t)) S128x8192.size (k0_off1_inb (grid0.coords t))).emb (ix2 p j)) = _
  rw [show (iblk0 V c 1 t : Vec F S128x16384 .bf16) = V c main_v7 from read_unit_whole main_v7 _ _ z1 _]
  refine congrArg _ (funext (fin2 (Fin.ext ?_) (Fin.ext ?_)))
  · show k0_off1 (grid0.coords t) 0 + 1 * p.val = p.val; rw [o0]; omega
  · show k0_off1 (grid0.coords t) 1 + 1 * j.val = q.val; rw [o1, hq]; omega

end Pieces

section Result
variable (m : (ℓ : Loc nD τ sig) → Buf (Elt Ideal) ℓ) (c : Dev nD)

/-- The launch's feature array, patch-index vector, weights and biases, and the reference's level-0 stage of them. -/
abbrev featA : FVec Ideal S16x256x128x128 .f32 := m ((c : Thread nD τ).loc main_arg0)
abbrev idxA : IVec S128 32 := m ((c : Thread nD τ).loc main_arg3)
abbrev w1A : FVec Ideal S256x256 .f32 := m ((c : Thread nD τ).loc main_arg6)
abbrev b1A : FVec Ideal S256 .f32 := m ((c : Thread nD τ).loc main_arg7)
abbrev w2A : FVec Ideal S256x256 .f32 := m ((c : Thread nD τ).loc main_arg8)
abbrev b2A : FVec Ideal S256 .f32 := m ((c : Thread nD τ).loc main_arg9)
abbrev G0 : FVec Ideal S16x128x256 .f32 :=
  Cert.ReferenceIdeal.Read.val_main_v25 (F := Ideal) (featA m c) (idxA m c) (w1A m c) (b1A m c) (w2A m c) (b2A m c)

/-- Where region 0 is entered the feature array is the launch's with its two spatial axes flattened, -/
theorem V1_v0 : (entry0 m c main_v0 : FVec Ideal S16x256x16384 .f32)
    = shapeCast S16x256x16384 (featA m c) shapeCasts_S16x256x128x128_S16x256x16384 := by
  show StableHlo.after hostOps0 _ (Proc.devRef .tc main_v0) = _
  after_results; rfl
/-- the one-hot table the patch words down the rows compared with the positions along the columns, -/
theorem V1_v7 : (entry0 m c main_v7 : FVec Ideal S128x16384 .bf16)
    = onehot (F := Ideal) (idxA m c) bcast_S128x1_S128x16384_0_1 bcast_S1x16384_S128x16384_0_1 shapeCasts_S16384_S1x16384 := by
  show StableHlo.after hostOps0 _ (Proc.devRef .tc main_v7) = _
  after_results; rfl
/-- and the two bias rows the bias vectors as one-row arrays. -/
theorem V1_v8 : (entry0 m c main_v8 : FVec Ideal S1x256 .f32) = shapeCast S1x256 (b1A m c) shapeCasts_S256_S1x256 := by
  show StableHlo.after hostOps0 _ (Proc.devRef .tc main_v8) = _
  after_results; rfl
theorem V1_v9 : (entry0 m c main_v9 : FVec Ideal S1x256 .f32) = shapeCast S1x256 (b2A m c) shapeCasts_S256_S1x256 := by
  show StableHlo.after hostOps0 _ (Proc.devRef .tc main_v9) = _
  after_results; rfl

/-- Point `s`'s one-hot half at `(p, j)`: whether patch `p`'s word names column `q = 8192 · (s % 2) + j`. -/
theorem oh_entry (s : Fin cfg0.N) (p : Fin 128) (j : Fin 8192) (q : Fin 16384) (hq : q.val = 8192 * (s.val % 2) + j.val) :
    ohHalf (entry0 m) c s (ix2 p j) = if (idxA m c (ix1 p)).toNat = q.val then (1 : EReal) else 0 :=
  (ohHalf_apply (entry0 m) c s p j q hq).trans ((congrFun (V1_v7 m c) _).trans (onehot_apply (by norm_num) _ _ _ _ p q))

/-- The feature block of point `s`, a half of batch `b`, at `(0, ch, j)`: the launch's features at position `q = 8192 · (s % 2) + j`. -/
theorem feat_entry (s : Fin cfg0.N) (b : Fin 16) (hb : b.val = s.val / 2) (ch : Fin 256) (j : Fin 8192) (q : Fin 16384)
    (hq : q.val = 8192 * (s.val % 2) + j.val) :
    (iblk0 (entry0 m) c 0 s : Vec Ideal S1x256x8192 .f32) (ix3 (0 : Fin 1) ch j)
      = featA m c (ix4 b ch ⟨q.val / 128, by omega⟩ ⟨q.val % 128, by omega⟩) := by
  obtain ⟨⟨i0, i1, i2⟩, -⟩ := idx0 s
  refine (read_unit_apply main_v0 (entry0 m c main_v0) _ _ (ix3 b ch q) (fin3 ?_ ?_ ?_)).trans
    ((congrFun (V1_v0 m c) _).trans (flat_apply (H := 128) (W := 128) rfl (by norm_num) _ _ b ch q))
  · show b.val = win0_0.index s 0 * 1 + 0; rw [i0, hb]; omega
  · show ch.val = win0_0.index s 1 * 256 + ch.val; rw [i1]; omega
  · show q.val = win0_0.index s 2 * 8192 + j.val; rw [i2, hq]; omega

/-- A last half's result block at `(0, p, n)` is the reference's stage at `(batch, p, n)`: over the two halves the one-hot rows select the feature column the patch word names. -/
theorem outLast0_pt (hidx : ∀ j : S128.Idx, (idxA m c j).toNat < 16384) (t : Fin cfg0.N) (h : t.val % 2 = 1)
    (b : Fin 16) (hb : b.val = t.val / 2) (p : Fin 128) (n : Fin 256) :
    outLast0 (entry0 m) c t h (ix3 (0 : Fin 1) p n) = G0 m c (ix3 b p n) := by
  have hlt : t.val - 1 < cfg0.N := by have := t.isLt; omega
  have hev : (t.val - 1) % 2 = 0 := by omega
  have hc : carried0 (entry0 m) c (t.val - 1)
      = k0_pay2 (ohHalf (entry0 m) c ⟨t.val - 1, hlt⟩) (iblk0 (entry0 m) c 0 ⟨t.val - 1, hlt⟩) (k0_pay1 (F := Ideal)) := by
    unfold carried0
    rw [dif_pos ⟨hlt, hev⟩]
    exact selFirst0_eq (entry0 m) c ⟨t.val - 1, hlt⟩ hev
  obtain ⟨-, -, z2, z3, z4, z5, -⟩ := idx0 t
  have e2 : (iblk0 (entry0 m) c 2 t : Vec Ideal S256x256 .f32) = w1A m c :=
    (read_unit_whole main_arg6 _ _ z2 _).trans (V1_arg m c main_arg6)
  have e3 : (iblk0 (entry0 m) c 3 t : Vec Ideal S1x256 .f32) = entry0 m c main_v8 := read_unit_whole main_v8 _ _ z3 _
  have e4 : (iblk0 (entry0 m) c 4 t : Vec Ideal S256x256 .f32) = w2A m c :=
    (read_unit_whole main_arg8 _ _ z4 _).trans (V1_arg m c main_arg8)
  have e5 : (iblk0 (entry0 m) c 5 t : Vec Ideal S1x256 .f32) = entry0 m c main_v9 := read_unit_whole main_v9 _ _ z5 _
  refine (congrFun (outLast0_eq (entry0 m) c t h) _).trans ?_
  rw [hc, e2, e4]
  exact Cert.Hand.Level0.bridge _ _ _ _ _ _ hidx b _ _ _ _ _ _
    (fun p j => oh_entry m c ⟨t.val - 1, hlt⟩ p j ⟨j.val, by omega⟩ (by show j.val = 8192 * ((t.val - 1) % 2) + j.val; omega))
    (fun p j => oh_entry m c t p j ⟨8192 + j.val, by omega⟩ (by show 8192 + j.val = 8192 * (t.val % 2) + j.val; omega))
    (fun ch j => feat_entry m c ⟨t.val - 1, hlt⟩ b (by show b.val = (t.val - 1) / 2; omega) ch j ⟨j.val, by omega⟩
      (by show j.val = 8192 * ((t.val - 1) % 2) + j.val; omega))
    (fun ch j => feat_entry m c t b hb ch j ⟨8192 + j.val, by omega⟩ (by show 8192 + j.val = 8192 * (t.val % 2) + j.val; omega))
    (fun n => (congrFun (e3.trans (V1_v8 m c)) _).trans (shapeCast_a_1a_apply _ _ 0 n))
    (fun n => (congrFun (e5.trans (V1_v9 m c)) _).trans (shapeCast_a_1a_apply _ _ 0 n)) p n

/-- A last half's result block, read into the result array's index space, is its block of the reference's stage. -/
theorem flushed0_eq (hidx : ∀ j : S128.Idx, (idxA m c j).toNat < 16384) (t : Fin cfg0.N) (hf : (cfg0.win 6).flush t = true) :
    (dat0 (entry0 m) c).flushed 6 t = ((cfg0.win 6).blk t).view.read (Elt Ideal) (G0 m c) := by
  have h : t.val % 2 = 1 := (flush0_6 t).mp hf
  have hb : t.val / 2 < 16 := by have := Nat.lt_of_lt_of_eq t.isLt N_0; omega
  obtain ⟨-, -, -, -, -, -, ⟨i0, i1, i2⟩, -⟩ := idx0 t
  show (cfg0.win 6).cut (grid0.coords t) ((dat0 (entry0 m) c).after 6 t) = _
  rw [after0_6 (entry0 m) c t h]
  funext x
  obtain ⟨u, p, n, rfl⟩ : ∃ (u : Fin 1) (p : Fin 128) (n : Fin 256), x = ix3 u p n := ⟨x 0, x 1, x 2, eq_ix3 x⟩
  obtain rfl : u = 0 := Subsingleton.elim _ _
  refine (outLast0_pt m c hidx t h ⟨t.val / 2, hb⟩ rfl p n).trans
    (read_unit_apply (Val := Elt Ideal) main_v10 (G0 m c) _ _ _ (fin3 ?_ ?_ ?_)).symm
  · show t.val / 2 = win0_6.index t 0 * 1 + 0; rw [i0]; omega
  · show p.val = win0_6.index t 1 * 128 + p.val; rw [i1]; omega
  · show n.val = win0_6.index t 2 * 256 + n.val; rw [i2]; omega

end Result

end Value0

open Value0 in
/-- Region 0's result array is the reference's level-0 stage: each last half's block is its batch's block of it, and the blocks cover the array. -/
theorem res0_eq (m : (ℓ : Loc nD τ sig) → Buf (Elt Ideal) ℓ) (c : Dev nD)
    (hidx : ∀ j : S128.Idx, ((m ((c : Thread nD τ).loc main_arg3) : IVec S128 32) j).toNat < 16384) :
    (res0 (F := Ideal) m c : FVec Ideal S16x128x256 .f32)
      = Cert.ReferenceIdeal.Read.val_main_v25 (F := Ideal) (m ((c : Thread nD τ).loc main_arg0)) (m ((c : Thread nD τ).loc main_arg3))
          (m ((c : Thread nD τ).loc main_arg6)) (m ((c : Thread nD τ).loc main_arg7)) (m ((c : Thread nD τ).loc main_arg8))
          (m ((c : Thread nD τ).loc main_arg9)) :=
  (dat0 (entry0 m) c).arrAt_eq_of_cover 6 (G0 m c) (fun t hf => flushed0_eq m c hidx t hf) fun i => by
    have ht : 2 * (i 0).val + 1 < cfg0.N := by
      have : (i 0).val < 16 := (i 0).isLt
      rw [show cfg0.N = 32 from N_0]; omega
    obtain ⟨-, -, -, -, -, -, ⟨i0, i1, i2⟩, -⟩ := idx0 ⟨2 * (i 0).val + 1, ht⟩
    exact ⟨_, (flush0_6 _).mpr (by show (2 * (i 0).val + 1) % 2 = 1; omega), mem_unit main_v10 _ i
      (batch_block 1 Nat.one_pos _ i (i0.trans (by show (2 * (i 0).val + 1) / 2 = (i 0).val / 1; omega)) i1 i2)⟩

end Cert.KernelIdeal.Hand

end
-- ==== Proof.Level1.lean ====
import proofs.«428561_j53893249630457_3_alg».proof.Proof.Gen.KernelIdeal.Skeleton
import proofs.«428561_j53893249630457_3_alg».proof.Proof.Gen.ReferenceIdeal.Read
import proofs.«428561_j53893249630457_3_alg».proof.Proof.Head

noncomputable section

namespace Cert.Hand.Level1

open Idealize.ShloMosaic Idealize.ShloMosaic.ValueIdx Cert.KernelIdeal Cert.KernelIdeal.Gen Cert.ReferenceIdeal.Read

/-- The gathered rows at (b, p, c): the feature at channel c and position idx p. -/
theorem ref_gather_apply (feat : FVec Ideal S16x512x64x64 .f32) (idx : IVec S128 32)
    (hidx : ∀ j : S128.Idx, (idx j).toNat < 4096) (b : Fin 16) (p : Fin 128) (c : Fin 512) :
    val_main_v34 (F := Ideal) feat idx (ix3 b p c)
      = feat (ix4 b c ⟨(idx (ix1 p)).toNat / 64, by have := hidx (ix1 p); omega⟩
          ⟨(idx (ix1 p)).toNat % 64, Nat.mod_lt _ (by decide)⟩) := by
  have ht := hidx (ix1 p)
  have e : idx_main_v33 (ix2 p (0 : Fin 1)) = ix1 p := eq_ix1 _
  unfold val_main_v34
  refine (Head.gather_row_apply _ _ _ b p c ⟨(idx (ix1 p)).toNat, ht⟩ ?_).trans ?_
  · rw [val_main_v33_apply, e, val_main_v32_apply, val_main_v29_apply, val_main_v31_apply, val_main_v28_apply,
      val_main_v30_apply, val_main_c_2_apply, val_main_c_3_apply]
    exact Head.idx_word _ _ (by omega)
  rw [val_main_v27_apply, val_main_v26_apply]
  refine congrArg feat (funext fun a => Fin.ext ?_)
  have hb := b.isLt
  have hc := c.isLt
  match a with
  | ⟨0, _⟩ => show ((b.val * 4096 + (idx (ix1 p)).toNat) * 512 + c.val) / 2097152 = b.val; omega
  | ⟨1, _⟩ => show ((b.val * 4096 + (idx (ix1 p)).toNat) * 512 + c.val) % 512 = c.val; omega
  | ⟨2, _⟩ => show ((b.val * 4096 + (idx (ix1 p)).toNat) * 512 + c.val) / 32768 % 64 = (idx (ix1 p)).toNat / 64; omega
  | ⟨3, _⟩ => show ((b.val * 4096 + (idx (ix1 p)).toNat) * 512 + c.val) / 512 % 64 = (idx (ix1 p)).toNat % 64; omega

/-- The reference's stage at (b, p, n): the head of the gathered row. -/
theorem ref_head_apply (feat : FVec Ideal S16x512x64x64 .f32) (idx : IVec S128 32) (w1 : FVec Ideal S512x256 .f32)
    (b1 : FVec Ideal S256 .f32) (w2 : FVec Ideal S256x256 .f32) (b2 : FVec Ideal S256 .f32) (b : Fin 16) (p : Fin 128) (n : Fin 256) :
    val_main_v51 (F := Ideal) feat idx w1 b1 w2 b2 (ix3 b p n)
      = Head.head (fun c => val_main_v34 (F := Ideal) feat idx (ix3 b p c)) w1 (fun m => b1 (ix1 m)) w2 (fun m => b2 (ix1 m)) n := by
  have e1 : ∀ k, idx_main_v45 (idx_main_v46 (idx_main_v50 (ix3 b p n))) k = ix3 b p k := fun k => eq_ix3 _
  have e2 : ∀ (m : Fin 256) k, lidx_main_v40 (ix3 b p m) k = ix3 b p k := fun m k => eq_ix3 _
  have e3 : ∀ (m : Fin 256) k, ridx_main_v40 (ix3 b p m) k = ix2 k m := fun m k => eq_ix2 _
  have e4 : ∀ m : Fin 256, idx_main_v41 (idx_main_v42 (ix3 b p m)) = ix1 m := fun m => eq_ix1 _
  have e5 : ∀ (m : Fin 256) k, lidx_main_v35 (ix3 b p m) k = ix3 b p k := fun m k => eq_ix3 _
  have e6 : ∀ (m : Fin 256) k, ridx_main_v35 (ix3 b p m) k = ix2 k m := fun m k => eq_ix2 _
  have e7 : ∀ m : Fin 256, idx_main_v36 (idx_main_v37 (ix3 b p m)) = ix1 m := fun m => eq_ix1 _
  simp only [val_main_v51_apply, val_main_v50_apply, val_main_v49_apply, val_main_v47_apply, val_main_v46_apply,
    val_main_v45_apply, val_main_v48_apply, val_main_cst_5_apply, val_main_cst_4_apply, val_main_v44_apply,
    val_main_v43_apply, val_main_v40_apply, val_main_v42_apply, val_main_v41_apply,
    val_main_v39_apply, val_main_v38_apply, val_main_v35_apply, val_main_v37_apply, val_main_v36_apply,
    val_main_call1_v0_apply, val_main_call1_cst_apply, e1, e2, e3, e4, e5, e6, e7]
  unfold Head.head
  show Ideal.div _ (Ideal.sqrt (Ideal.ofBits .f32 0x00000000#32 + _) + _) = _
  rw [Ideal.ofBits_zero_f32, zero_add]
  rfl

/-- Row p of the accumulator is the one-hot sum over the positions, which keeps position idx p: the gathered row. -/
theorem bridge (feat : FVec Ideal S16x512x64x64 .f32) (idx : IVec S128 32) (w1 : FVec Ideal S512x256 .f32)
    (b1 : FVec Ideal S256 .f32) (w2 : FVec Ideal S256x256 .f32) (b2 : FVec Ideal S256 .f32)
    (hidx : ∀ j : S128.Idx, (idx j).toNat < 4096) (b : Fin 16)
    (oh : Vec Ideal S128x4096 .bf16) (f : Vec Ideal S1x512x4096 .f32) (b1r b2r : Vec Ideal S1x256 .f32)
    (hoh : ∀ (p : Fin 128) (j : Fin 4096), oh (ix2 p j) = if (idx (ix1 p)).toNat = j.val then (1 : EReal) else 0)
    (hf : ∀ (c : Fin 512) (j : Fin 4096), f (ix3 (0 : Fin 1) c j)
        = feat (ix4 b c ⟨j.val / 64, by have := j.isLt; omega⟩ ⟨j.val % 64, Nat.mod_lt _ (by decide)⟩))
    (hb1r : ∀ n : Fin 256, b1r (ix2 (0 : Fin 1) n) = b1 (ix1 n)) (hb2r : ∀ n : Fin 256, b2r (ix2 (0 : Fin 1) n) = b2 (ix1 n))
    (p : Fin 128) (n : Fin 256) :
    k1_pay3 (F := Ideal) (k1_pay2 oh f (k1_pay1 (F := Ideal))) w1 b1r w2 b2r (ix3 (0 : Fin 1) p n)
      = Cert.ReferenceIdeal.Read.val_main_v51 (F := Ideal) feat idx w1 b1 w2 b2 (ix3 b p n) := by
  refine (Head.head_apply _ _ w1 b1r w2 b2r p n _ _ _ (fun c => ?_) hb1r hb2r).trans
    (ref_head_apply feat idx w1 b1 w2 b2 b p n).symm
  refine Eq.trans ?_ (ref_gather_apply feat idx hidx b p c).symm
  refine (Head.acc_apply oh f _ _ _ _ _ p c).trans ((congrArg (· + _) (Head.zero_apply _ _)).trans ((zero_add _).trans ?_))
  exact (Finset.sum_congr rfl fun j _ => by rw [hoh p j, hf c j]).trans
    (Head.sum_onehot _ (hidx (ix1 p))
      fun j => feat (ix4 b c ⟨j.val / 64, by have := j.isLt; omega⟩ ⟨j.val % 64, Nat.mod_lt _ (by decide)⟩))

end Cert.Hand.Level1

end
-- ==== Proof.KI.Value1.lean ====
import proofs.«428561_j53893249630457_3_alg».proof.Proof.KI.ValueLib
import proofs.«428561_j53893249630457_3_alg».proof.Proof.Level1

noncomputable section

namespace Cert.KernelIdeal.Hand

open Cert.KernelIdeal.Gen Idealize.ShloMosaic Idealize.ShloMosaic.TcCoe Idealize.ShloMosaic.ValueIdx

namespace Value1

section Entry
variable {F : FTy → Type} [FloatOps F] (m : (ℓ : Loc nD τ sig) → Buf (Elt F) ℓ) (outs : Outs (F := F)) (c : Dev nD)

/-- Where region 1 is entered the feature array is the launch's with its two spatial axes flattened, -/
theorem V3_v11 : (V3 m outs c main_v11 : S16x512x4096.Idx → Elt F .f32)
    = shapeCast S16x512x4096 (m ((c : Thread nD τ).loc main_arg1) : S16x512x64x64.Idx → Elt F .f32) shapeCasts_S16x512x64x64_S16x512x4096 := by
  show StableHlo.after hostOps1 (V2 m outs c) (Proc.devRef .tc main_v11) = _
  after_results
  rw [V2_arg m outs c main_arg1]
  rfl
/-- the one-hot table the patch words down the rows compared with the positions along the columns, -/
theorem V3_v18 : (V3 m outs c main_v18 : S128x4096.Idx → Elt F .bf16)
    = onehot (m ((c : Thread nD τ).loc main_arg4)) bcast_S128x1_S128x4096_0_1 bcast_S1x4096_S128x4096_0_1 shapeCasts_S4096_S1x4096 := by
  show StableHlo.after hostOps1 (V2 m outs c) (Proc.devRef .tc main_v18) = _
  after_results
  rw [V2_arg m outs c main_arg4]
  rfl
/-- and the two bias rows the bias vectors as one-row arrays. -/
theorem V3_v19 : (V3 m outs c main_v19 : S1x256.Idx → Elt F .f32)
    = shapeCast S1x256 (m ((c : Thread nD τ).loc main_arg11) : S256.Idx → Elt F .f32) shapeCasts_S256_S1x256 := by
  show StableHlo.after hostOps1 (V2 m outs c) (Proc.devRef .tc main_v19) = _
  after_results
  rw [V2_arg m outs c main_arg11]
  rfl
theorem V3_v20 : (V3 m outs c main_v20 : S1x256.Idx → Elt F .f32)
    = shapeCast S1x256 (m ((c : Thread nD τ).loc main_arg13) : S256.Idx → Elt F .f32) shapeCasts_S256_S1x256 := by
  show StableHlo.after hostOps1 (V2 m outs c) (Proc.devRef .tc main_v20) = _
  after_results
  rw [V2_arg m outs c main_arg13]
  rfl

end Entry

/-- The windows' block indices at every grid point. -/
theorem idx1 : ∀ t : Fin cfg1.N,
    (win1_0.index t 0 = t.val ∧ win1_0.index t 1 = 0 ∧ win1_0.index t 2 = 0)
    ∧ (∀ a, win1_1.index t a = 0) ∧ (∀ a, win1_2.index t a = 0) ∧ (∀ a, win1_3.index t a = 0)
    ∧ (∀ a, win1_4.index t a = 0) ∧ (∀ a, win1_5.index t a = 0)
    ∧ win1_6.index t 0 = t.val ∧ win1_6.index t 1 = 0 ∧ win1_6.index t 2 = 0 :=
  (by decide +kernel : ∀ t : Fin grid1.N, _)

section Result
variable (m : (ℓ : Loc nD τ sig) → Buf (Elt Ideal) ℓ) (c : Dev nD)

/-- The reference's stage for this level, of the launch arguments. -/
abbrev ref1 : FVec Ideal S16x128x256 .f32 :=
  Cert.ReferenceIdeal.Read.val_main_v51 (F := Ideal) (m ((c : Thread nD τ).loc main_arg1)) (m ((c : Thread nD τ).loc main_arg4))
    (m ((c : Thread nD τ).loc main_arg10)) (m ((c : Thread nD τ).loc main_arg11)) (m ((c : Thread nD τ).loc main_arg12))
    (m ((c : Thread nD τ).loc main_arg13))

/-- Point `t`'s result block at `(0, p, n)` is the reference's stage at `(t, p, n)`: the one-hot rows select the feature column the patch word names. -/
theorem out1_pt (hidx : ∀ j : S128.Idx, ((m ((c : Thread nD τ).loc main_arg4) : IVec S128 32) j).toNat < 4096)
    (t : Fin cfg1.N) (b : Fin 16) (hb : b.val = t.val) (p : Fin 128) (n : Fin 256) :
    (out1 (iblk1 (entry1 m) c 0 t) (iblk1 (entry1 m) c 1 t) (iblk1 (entry1 m) c 2 t) (iblk1 (entry1 m) c 3 t)
        (iblk1 (entry1 m) c 4 t) (iblk1 (entry1 m) c 5 t) : Vec Ideal S1x128x256 .f32) (ix3 (0 : Fin 1) p n)
      = ref1 m c (ix3 b p n) := by
  obtain ⟨⟨i0, i1, i2⟩, z1, z2, z3, z4, z5, -⟩ := idx1 t
  have e1 : (iblk1 (entry1 m) c 1 t : Vec Ideal S128x4096 .bf16) = entry1 m c main_v18 := read_unit_whole main_v18 _ _ z1 _
  have e2 : (iblk1 (entry1 m) c 2 t : Vec Ideal S512x256 .f32) = m ((c : Thread nD τ).loc main_arg10) :=
    (read_unit_whole main_arg10 _ _ z2 _).trans (V3_arg m (outsA m) c main_arg10)
  have e3 : (iblk1 (entry1 m) c 3 t : Vec Ideal S1x256 .f32) = entry1 m c main_v19 := read_unit_whole main_v19 _ _ z3 _
  have e4 : (iblk1 (entry1 m) c 4 t : Vec Ideal S256x256 .f32) = m ((c : Thread nD τ).loc main_arg12) :=
    (read_unit_whole main_arg12 _ _ z4 _).trans (V3_arg m (outsA m) c main_arg12)
  have e5 : (iblk1 (entry1 m) c 5 t : Vec Ideal S1x256 .f32) = entry1 m c main_v20 := read_unit_whole main_v20 _ _ z5 _
  have e0 : ∀ (c' : Fin 512) (j : Fin 4096), (iblk1 (entry1 m) c 0 t : Vec Ideal S1x512x4096 .f32) (ix3 (0 : Fin 1) c' j)
      = entry1 m c main_v11 (ix3 b c' j) := fun c' j => by
    refine read_unit_apply main_v11 _ _ _ _ (fin3 ?_ ?_ ?_)
    · show b.val = win1_0.index t 0 * 1 + 0; rw [i0, hb]; omega
    · show c'.val = win1_0.index t 1 * 512 + c'.val; rw [i1]; omega
    · show j.val = win1_0.index t 2 * 4096 + j.val; rw [i2]; omega
  unfold out1 acc1
  rw [e2, e4]
  exact Cert.Hand.Level1.bridge _ _ _ _ _ _ hidx b _ _ _ _
    (fun p' j => (congrFun (e1.trans (V3_v18 m (outsA m) c)) (ix2 p' j)).trans (onehot_apply (by norm_num) _ _ _ _ p' j))
    (fun c' j => (e0 c' j).trans ((congrFun (V3_v11 m (outsA m) c) _).trans (flat_apply (H := 64) (W := 64) rfl (by norm_num) _ _ b c' j)))
    (fun n' => (congrFun (e3.trans (V3_v19 m (outsA m) c)) _).trans (shapeCast_a_1a_apply _ _ 0 n'))
    (fun n' => (congrFun (e5.trans (V3_v20 m (outsA m) c)) _).trans (shapeCast_a_1a_apply _ _ 0 n'))
    p n

/-- Point `t`'s result block, read into the result array's index space, is its block of the reference's stage. -/
theorem flushed1_eq (hidx : ∀ j : S128.Idx, ((m ((c : Thread nD τ).loc main_arg4) : IVec S128 32) j).toNat < 4096) (t : Fin cfg1.N) :
    (dat1 (entry1 m) c).flushed 6 t = ((cfg1.win 6).blk t).view.read (Elt Ideal) (ref1 m c) := by
  obtain ⟨-, -, -, -, -, -, i0, i1, i2⟩ := idx1 t
  have hb : t.val < 16 := Nat.lt_of_lt_of_eq t.isLt N_1
  show (cfg1.win 6).cut (grid1.coords t) ((dat1 (entry1 m) c).after 6 t) = _
  rw [after1_6]
  funext x
  obtain ⟨u, p, n, rfl⟩ : ∃ (u : Fin 1) (p : Fin 128) (n : Fin 256), x = ix3 u p n := ⟨x 0, x 1, x 2, eq_ix3 x⟩
  obtain rfl : u = 0 := Subsingleton.elim _ _
  refine (out1_pt m c hidx t ⟨t.val, hb⟩ rfl p n).trans (read_unit_apply (Val := Elt Ideal) main_v21 (ref1 m c) _ _ _ (fin3 ?_ ?_ ?_)).symm
  · show t.val = win1_6.index t 0 * 1 + 0; rw [i0]; omega
  · show p.val = win1_6.index t 1 * 128 + p.val; rw [i1]; omega
  · show n.val = win1_6.index t 2 * 256 + n.val; rw [i2]; omega

end Result

end Value1

open Value1 in
/-- Region 1's result array is the reference's level-1 stage: each point's block is its batch's block of it, and the blocks cover the array. -/
theorem res1_eq (m : (ℓ : Loc nD τ sig) → Buf (Elt Ideal) ℓ) (c : Dev nD)
    (hidx : ∀ j : S128.Idx, ((m ((c : Thread nD τ).loc main_arg4) : IVec S128 32) j).toNat < 4096) :
    (res1 (F := Ideal) m c : FVec Ideal S16x128x256 .f32)
      = Cert.ReferenceIdeal.Read.val_main_v51 (F := Ideal) (m ((c : Thread nD τ).loc main_arg1)) (m ((c : Thread nD τ).loc main_arg4))
          (m ((c : Thread nD τ).loc main_arg10)) (m ((c : Thread nD τ).loc main_arg11)) (m ((c : Thread nD τ).loc main_arg12))
          (m ((c : Thread nD τ).loc main_arg13)) :=
  (dat1 (entry1 m) c).arrAt_eq_of_cover 6 (ref1 m c) (fun t _ => flushed1_eq m c hidx t) fun i => by
    have ht : (i 0).val < cfg1.N := Nat.lt_of_lt_of_eq (i 0).isLt N_1.symm
    obtain ⟨-, -, -, -, -, -, i0, i1, i2⟩ := idx1 ⟨(i 0).val, ht⟩
    exact ⟨⟨(i 0).val, ht⟩, flush1_6 _, mem_unit main_v21 _ i (batch_block 1 Nat.one_pos _ i (i0.trans (Nat.div_one _).symm) i1 i2)⟩

end Cert.KernelIdeal.Hand

end
-- ==== Proof.Level2.lean ====
import proofs.«428561_j53893249630457_3_alg».proof.Proof.Gen.KernelIdeal.Skeleton
import proofs.«428561_j53893249630457_3_alg».proof.Proof.Gen.ReferenceIdeal.Read
import proofs.«428561_j53893249630457_3_alg».proof.Proof.Head

noncomputable section

namespace Cert.Hand.Level2

open Idealize.ShloMosaic Idealize.ShloMosaic.ValueIdx Cert.KernelIdeal Cert.KernelIdeal.Gen Cert.ReferenceIdeal.Read

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  Head.shapeCast_a_a1_apply x h i u

theorem zero_apply (i : S2x128x1024.Idx) : k2_pay4 (F := Ideal) i = 0 :=
  Head.zero_apply _ i

/-- The gathered rows at (b, p, c): the feature at channel c and position idx p. -/
theorem ref_gather_apply (feat : FVec Ideal S16x1024x32x32 .f32) (idx : IVec S128 32) (hidx : ∀ j : S128.Idx, (idx j).toNat < 1024)
    (b : Fin 16) (p : Fin 128) (c : Fin 1024) :
    val_main_v60 (F := Ideal) feat idx (ix3 b p c)
      = feat (ix4 b c ⟨(idx (ix1 p)).toNat / 32, by have := hidx (ix1 p); omega⟩ ⟨(idx (ix1 p)).toNat % 32, by omega⟩) := by
  have ht := hidx (ix1 p)
  have e : idx_main_v59 (ix2 p (0 : Fin 1)) = ix1 p := eq_ix1 _
  unfold val_main_v60
  refine (Head.gather_row_apply _ _ _ b p c ⟨(idx (ix1 p)).toNat, ht⟩ ?_).trans ?_
  · rw [val_main_v59_apply, val_main_v58_apply, val_main_v55_apply, val_main_v54_apply, val_main_c_6_apply, e]
    exact Head.idx_word _ _ (by omega)
  rw [val_main_v53_apply, val_main_v52_apply]
  refine congrArg feat (funext fun a => Fin.ext ?_)
  have hb := b.isLt
  have hc := c.isLt
  match a with
  | ⟨0, _⟩ => show ((b.val * 1024 + (idx (ix1 p)).toNat) * 1024 + c.val) / 1048576 = b.val; omega
  | ⟨1, _⟩ => show ((b.val * 1024 + (idx (ix1 p)).toNat) * 1024 + c.val) % 1024 = c.val; omega
  | ⟨2, _⟩ => show ((b.val * 1024 + (idx (ix1 p)).toNat) * 1024 + c.val) / 32768 % 32 = (idx (ix1 p)).toNat / 32; omega
  | ⟨3, _⟩ => show ((b.val * 1024 + (idx (ix1 p)).toNat) * 1024 + c.val) / 1024 % 32 = (idx (ix1 p)).toNat % 32; omega

/-- The reference's stage at (b, p, n): the head of the gathered row. -/
theorem ref_head_apply (feat : FVec Ideal S16x1024x32x32 .f32) (idx : IVec S128 32) (w1 : FVec Ideal S1024x256 .f32)
    (b1 : FVec Ideal S256 .f32) (w2 : FVec Ideal S256x256 .f32) (b2 : FVec Ideal S256 .f32) (b : Fin 16) (p : Fin 128) (n : Fin 256) :
    val_main_v77 (F := Ideal) feat idx w1 b1 w2 b2 (ix3 b p n)
      = Head.head (fun c => val_main_v60 (F := Ideal) feat idx (ix3 b p c)) w1 (fun m => b1 (ix1 m)) w2 (fun m => b2 (ix1 m)) n := by
  have e1 : ∀ k, idx_main_v71 (idx_main_v72 (idx_main_v76 (ix3 b p n))) k = ix3 b p k := fun k => eq_ix3 _
  have e2 : ∀ (m : Fin 256) k, lidx_main_v66 (ix3 b p m) k = ix3 b p k := fun m k => eq_ix3 _
  have e3 : ∀ (m : Fin 256) k, ridx_main_v66 (ix3 b p m) k = ix2 k m := fun m k => eq_ix2 _
  have e4 : ∀ m : Fin 256, idx_main_v67 (idx_main_v68 (ix3 b p m)) = ix1 m := fun m => eq_ix1 _
  have e5 : ∀ (m : Fin 256) k, lidx_main_v61 (ix3 b p m) k = ix3 b p k := fun m k => eq_ix3 _
  have e6 : ∀ (m : Fin 256) k, ridx_main_v61 (ix3 b p m) k = ix2 k m := fun m k => eq_ix2 _
  have e7 : ∀ m : Fin 256, idx_main_v62 (idx_main_v63 (ix3 b p m)) = ix1 m := fun m => eq_ix1 _
  simp only [val_main_v77_apply, val_main_v76_apply, val_main_v75_apply, val_main_v73_apply, val_main_v72_apply,
    val_main_v71_apply, val_main_v74_apply, val_main_cst_9_apply, val_main_cst_8_apply, val_main_v70_apply,
    val_main_v69_apply, val_main_v66_apply, val_main_v68_apply, val_main_v67_apply,
    val_main_v65_apply, val_main_v64_apply, val_main_v61_apply, val_main_v63_apply, val_main_v62_apply,
    val_main_call2_v0_apply, val_main_call2_cst_apply, e1, e2, e3, e4, e5, e6, e7]
  unfold Head.head
  show Ideal.div _ (Ideal.sqrt (Ideal.ofBits .f32 0x00000000#32 + _) + _) = _
  rw [Ideal.ofBits_zero_f32, zero_add]
  rfl

/-- Row p of the accumulator is the one-hot sum over the positions, which keeps position idx p: the gathered row. -/
theorem bridge1 (feat : FVec Ideal S16x1024x32x32 .f32) (idx : IVec S128 32) (w1 : FVec Ideal S1024x256 .f32) (b1 : FVec Ideal S256 .f32)
    (w2 : FVec Ideal S256x256 .f32) (b2 : FVec Ideal S256 .f32)
    (hidx : ∀ j : S128.Idx, (idx j).toNat < 1024) (b : Fin 16)
    (oh : Vec Ideal S128x1024 .bf16) (f : Vec Ideal S1x1024x1024 .f32) (z : Vec Ideal S1x128x1024 .f32) (b1r b2r : Vec Ideal S1x256 .f32)
    (hoh : ∀ (p : Fin 128) (j : Fin 1024), oh (ix2 p j) = if (idx (ix1 p)).toNat = j.val then (1 : EReal) else 0)
    (hf : ∀ (c j : Fin 1024), f (ix3 (0 : Fin 1) c j) = feat (ix4 b c ⟨j.val / 32, by omega⟩ ⟨j.val % 32, by omega⟩))
    (hz : ∀ (p : Fin 128) (c : Fin 1024), z (ix3 (0 : Fin 1) p c) = 0)
    (hb1r : ∀ n : Fin 256, b1r (ix2 (0 : Fin 1) n) = b1 (ix1 n)) (hb2r : ∀ n : Fin 256, b2r (ix2 (0 : Fin 1) n) = b2 (ix1 n))
    (p : Fin 128) (n : Fin 256) :
    k2_pay1 (F := Ideal) (k2_pay3 (F := Ideal) (k2_pay7 (F := Ideal) oh f z)) w1 b1r w2 b2r (ix3 (0 : Fin 1) p n)
      = Cert.ReferenceIdeal.Read.val_main_v77 (F := Ideal) feat idx w1 b1 w2 b2 (ix3 b p n) := by
  refine (Head.head_apply _ _ w1 b1r w2 b2r p n _ _ _ (fun c => ?_) hb1r hb2r).trans
    (ref_head_apply feat idx w1 b1 w2 b2 b p n).symm
  refine Eq.trans ?_ (ref_gather_apply feat idx hidx b p c).symm
  refine (Head.acc_apply oh f z _ _ _ _ p c).trans ((congrArg (· + _) (hz p c)).trans ((zero_add _).trans ?_))
  exact (Finset.sum_congr rfl fun j _ => by rw [hoh p j, hf c j]).trans
    (Head.sum_onehot _ (hidx (ix1 p)) fun j => feat (ix4 b c ⟨j.val / 32, by omega⟩ ⟨j.val % 32, by omega⟩))

/-- Both output pieces are one function of one accumulator. -/
theorem bridge0 (feat : FVec Ideal S16x1024x32x32 .f32) (idx : IVec S128 32) (w1 : FVec Ideal S1024x256 .f32) (b1 : FVec Ideal S256 .f32)
    (w2 : FVec Ideal S256x256 .f32) (b2 : FVec Ideal S256 .f32)
    (hidx : ∀ j : S128.Idx, (idx j).toNat < 1024) (b : Fin 16)
    (oh : Vec Ideal S128x1024 .bf16) (f : Vec Ideal S1x1024x1024 .f32) (z : Vec Ideal S1x128x1024 .f32) (b1r b2r : Vec Ideal S1x256 .f32)
    (hoh : ∀ (p : Fin 128) (j : Fin 1024), oh (ix2 p j) = if (idx (ix1 p)).toNat = j.val then (1 : EReal) else 0)
    (hf : ∀ (c j : Fin 1024), f (ix3 (0 : Fin 1) c j) = feat (ix4 b c ⟨j.val / 32, by omega⟩ ⟨j.val % 32, by omega⟩))
    (hz : ∀ (p : Fin 128) (c : Fin 1024), z (ix3 (0 : Fin 1) p c) = 0)
    (hb1r : ∀ n : Fin 256, b1r (ix2 (0 : Fin 1) n) = b1 (ix1 n)) (hb2r : ∀ n : Fin 256, b2r (ix2 (0 : Fin 1) n) = b2 (ix1 n))
    (p : Fin 128) (n : Fin 256) :
    k2_pay2 (F := Ideal) (k2_pay6 (F := Ideal) oh f z) w1 b1r w2 b2r (ix3 (0 : Fin 1) p n)
      = Cert.ReferenceIdeal.Read.val_main_v77 (F := Ideal) feat idx w1 b1 w2 b2 (ix3 b p n) :=
  bridge1 feat idx w1 b1 w2 b2 hidx b oh f z b1r b2r hoh hf hz hb1r hb2r p n

end Cert.Hand.Level2

end
-- ==== Proof.KI.Value2.lean ====
import proofs.«428561_j53893249630457_3_alg».proof.Proof.KI.ValueLib
import proofs.«428561_j53893249630457_3_alg».proof.Proof.Level2

noncomputable section

namespace Cert.KernelIdeal.Hand

open Cert.KernelIdeal.Gen Idealize.ShloMosaic Idealize.ShloMosaic.TcCoe Idealize.ShloMosaic.ValueIdx

namespace Value2

section Entry
variable {F : FTy → Type} [FloatOps F] (m : (ℓ : Loc nD τ sig) → Buf (Elt F) ℓ) (outs : Outs (F := F)) (c : Dev nD)

/-- Where region 2 is entered the feature array is the launch's with its two spatial axes flattened, -/
theorem V5_v22 : (V5 m outs c main_v22 : S16x1024x1024.Idx → Elt F .f32)
    = shapeCast S16x1024x1024 (m ((c : Thread nD τ).loc main_arg2) : S16x1024x32x32.Idx → Elt F .f32) shapeCasts_S16x1024x32x32_S16x1024x1024 := by
  show StableHlo.after hostOps2 (V4 m outs c) (Proc.devRef .tc main_v22) = _
  after_results
  rw [V4_arg m outs c main_arg2]
  rfl
/-- the one-hot table the patch words down the rows compared with the positions along the columns, -/
theorem V5_v29 : (V5 m outs c main_v29 : S128x1024.Idx → Elt F .bf16)
    = onehot (m ((c : Thread nD τ).loc main_arg5)) bcast_S128x1_S128x1024_0_1 bcast_S1x1024_S128x1024_0_1 shapeCasts_S1024_S1x1024 := by
  show StableHlo.after hostOps2 (V4 m outs c) (Proc.devRef .tc main_v29) = _
  after_results
  rw [V4_arg m outs c main_arg5]
  rfl
/-- and the two bias rows the bias vectors as one-row arrays. -/
theorem V5_v30 : (V5 m outs c main_v30 : S1x256.Idx → Elt F .f32)
    = shapeCast S1x256 (m ((c : Thread nD τ).loc main_arg15) : S256.Idx → Elt F .f32) shapeCasts_S256_S1x256 := by
  show StableHlo.after hostOps2 (V4 m outs c) (Proc.devRef .tc main_v30) = _
  after_results
  rw [V4_arg m outs c main_arg15]
  rfl
theorem V5_v31 : (V5 m outs c main_v31 : S1x256.Idx → Elt F .f32)
    = shapeCast S1x256 (m ((c : Thread nD τ).loc main_arg17) : S256.Idx → Elt F .f32) shapeCasts_S256_S1x256 := by
  show StableHlo.after hostOps2 (V4 m outs c) (Proc.devRef .tc main_v31) = _
  after_results
  rw [V4_arg m outs c main_arg17]
  rfl

/-- A batch slice of a point's result block and of its feature block, read in the block. -/
theorem out2_at0 (x0 : Vec F S2x1024x1024 .f32) (x1 : Vec F S128x1024 .bf16) (x2 : Vec F S1024x256 .f32) (x3 : Vec F S1x256 .f32)
    (x4 : Vec F S256x256 .f32) (x5 : Vec F S1x256 .f32) (p : Fin 128) (n : Fin 256) :
    out2 x0 x1 x2 x3 x4 x5 (ix3 (0 : Fin 2) p n)
      = k2_pay2 (k2_pay6 x1 (View.ld x0 rx_0) (View.ld (k2_pay4 (F := F)) r9_0)) x2 x3 x4 x5 (ix3 (0 : Fin 1) p n) := by
  rw [← out2_eq0]
  show _ = out2 x0 x1 x2 x3 x4 x5 (r8_0.idx (ix3 (0 : Fin 1) p n))
  rw [r8_0_idx]
theorem out2_at1 (x0 : Vec F S2x1024x1024 .f32) (x1 : Vec F S128x1024 .bf16) (x2 : Vec F S1024x256 .f32) (x3 : Vec F S1x256 .f32)
    (x4 : Vec F S256x256 .f32) (x5 : Vec F S1x256 .f32) (p : Fin 128) (n : Fin 256) :
    out2 x0 x1 x2 x3 x4 x5 (ix3 (1 : Fin 2) p n)
      = k2_pay1 (k2_pay3 (k2_pay7 x1 (View.ld x0 rx_1) (View.ld (k2_pay4 (F := F)) r9_1))) x2 x3 x4 x5 (ix3 (0 : Fin 1) p n) := by
  rw [← out2_eq1]
  show _ = out2 x0 x1 x2 x3 x4 x5 (r8_1.idx (ix3 (0 : Fin 1) p n))
  rw [r8_1_idx]
theorem ld_rx_0 (x0 : Vec F S2x1024x1024 .f32) (ch j : Fin 1024) :
    View.ld x0 rx_0 (ix3 (0 : Fin 1) ch j) = x0 (ix3 (0 : Fin 2) ch j) := congrArg x0 (rx_0_idx 0 ch j)
theorem ld_rx_1 (x0 : Vec F S2x1024x1024 .f32) (ch j : Fin 1024) :
    View.ld x0 rx_1 (ix3 (0 : Fin 1) ch j) = x0 (ix3 (1 : Fin 2) ch j) := congrArg x0 (rx_1_idx 0 ch j)

end Entry

/-- The windows' block indices at every grid point. -/
theorem idx2 : ∀ t : Fin cfg2.N,
    (win2_0.index t 0 = t.val ∧ win2_0.index t 1 = 0 ∧ win2_0.index t 2 = 0)
    ∧ (∀ a, win2_1.index t a = 0) ∧ (∀ a, win2_2.index t a = 0) ∧ (∀ a, win2_3.index t a = 0)
    ∧ (∀ a, win2_4.index t a = 0) ∧ (∀ a, win2_5.index t a = 0)
    ∧ win2_6.index t 0 = t.val ∧ win2_6.index t 1 = 0 ∧ win2_6.index t 2 = 0 :=
  (by decide +kernel : ∀ t : Fin grid2.N, _)

section Result
variable (m : (ℓ : Loc nD τ sig) → Buf (Elt Ideal) ℓ) (c : Dev nD)

/-- The reference's level-2 stage of the launch arguments. -/
abbrev stage2 : FVec Ideal S16x128x256 .f32 :=
  Cert.ReferenceIdeal.Read.val_main_v77 (F := Ideal) (m ((c : Thread nD τ).loc main_arg2)) (m ((c : Thread nD τ).loc main_arg5))
    (m ((c : Thread nD τ).loc main_arg14)) (m ((c : Thread nD τ).loc main_arg15)) (m ((c : Thread nD τ).loc main_arg16)) (m ((c : Thread nD τ).loc main_arg17))

/-- Point `t`'s result block at `(a, p, n)` is the reference's stage at batch `2t + a`: the one-hot rows select the feature column the patch word names. -/
theorem out2_pt (hidx : ∀ j : S128.Idx, ((m ((c : Thread nD τ).loc main_arg5) : IVec S128 32) j).toNat < 1024)
    (t : Fin cfg2.N) (p : Fin 128) (n : Fin 256) : ∀ (a : Fin 2) (b : Fin 16), b.val = 2 * t.val + a.val →
    out2 (F := Ideal) (iblk2 (entry2 m) c 0 t) (iblk2 (entry2 m) c 1 t) (iblk2 (entry2 m) c 2 t) (iblk2 (entry2 m) c 3 t)
        (iblk2 (entry2 m) c 4 t) (iblk2 (entry2 m) c 5 t) (ix3 a p n) = stage2 m c (ix3 b p n) := by
  obtain ⟨⟨i0, i1, i2⟩, z1, z2, z3, z4, z5, -⟩ := idx2 t
  have e1 : (iblk2 (entry2 m) c 1 t : Vec Ideal S128x1024 .bf16) = entry2 m c main_v29 := read_unit_whole main_v29 _ _ z1 _
  have e2 : (iblk2 (entry2 m) c 2 t : Vec Ideal S1024x256 .f32) = m ((c : Thread nD τ).loc main_arg14) :=
    (read_unit_whole main_arg14 _ _ z2 _).trans (V5_arg m (outsB m) c main_arg14)
  have e3 : (iblk2 (entry2 m) c 3 t : Vec Ideal S1x256 .f32) = entry2 m c main_v30 := read_unit_whole main_v30 _ _ z3 _
  have e4 : (iblk2 (entry2 m) c 4 t : Vec Ideal S256x256 .f32) = m ((c : Thread nD τ).loc main_arg16) :=
    (read_unit_whole main_arg16 _ _ z4 _).trans (V5_arg m (outsB m) c main_arg16)
  have e5 : (iblk2 (entry2 m) c 5 t : Vec Ideal S1x256 .f32) = entry2 m c main_v31 := read_unit_whole main_v31 _ _ z5 _
  have hoh : ∀ (p : Fin 128) (j : Fin 1024), (iblk2 (entry2 m) c 1 t : Vec Ideal S128x1024 .bf16) (ix2 p j)
      = if ((m ((c : Thread nD τ).loc main_arg5) : IVec S128 32) (ix1 p)).toNat = j.val then (1 : EReal) else 0 := fun p j =>
    (congrFun (e1.trans (V5_v29 m (outsB m) c)) _).trans (onehot_apply (by norm_num) _ _ _ _ p j)
  have hf : ∀ (a : Fin 2) (b : Fin 16), b.val = 2 * t.val + a.val → ∀ ch j : Fin 1024,
      (iblk2 (entry2 m) c 0 t : Vec Ideal S2x1024x1024 .f32) (ix3 a ch j)
        = (m ((c : Thread nD τ).loc main_arg2) : FVec Ideal S16x1024x32x32 .f32) (ix4 b ch ⟨j.val / 32, by omega⟩ ⟨j.val % 32, by omega⟩) :=
      fun a b hb ch j => by
    refine (read_unit_apply main_v22 (entry2 m c main_v22) _ _ (ix3 b ch j) (fin3 ?_ ?_ ?_)).trans
      ((congrFun (V5_v22 m (outsB m) c) _).trans (flat_apply (H := 32) (W := 32) rfl (by norm_num) _ _ b ch j))
    · show b.val = win2_0.index t 0 * 2 + a.val; rw [i0, hb]; omega
    · show ch.val = win2_0.index t 1 * 1024 + ch.val; rw [i1]; omega
    · show j.val = win2_0.index t 2 * 1024 + j.val; rw [i2]; omega
  have hb1 : ∀ n : Fin 256, (iblk2 (entry2 m) c 3 t : Vec Ideal S1x256 .f32) (ix2 (0 : Fin 1) n)
      = (m ((c : Thread nD τ).loc main_arg15) : FVec Ideal S256 .f32) (ix1 n) := fun n =>
    (congrFun (e3.trans (V5_v30 m (outsB m) c)) _).trans (shapeCast_a_1a_apply _ _ 0 n)
  have hb2 : ∀ n : Fin 256, (iblk2 (entry2 m) c 5 t : Vec Ideal S1x256 .f32) (ix2 (0 : Fin 1) n)
      = (m ((c : Thread nD τ).loc main_arg17) : FVec Ideal S256 .f32) (ix1 n) := fun n =>
    (congrFun (e5.trans (V5_v31 m (outsB m) c)) _).trans (shapeCast_a_1a_apply _ _ 0 n)
  rw [e2, e4]
  rw [Fin.forall_fin_two]
  refine ⟨fun b hb => ?_, fun b hb => ?_⟩
  · rw [out2_at0]
    exact Cert.Hand.Level2.bridge0 _ _ _ _ _ _ hidx b _ _ _ _ _ hoh (fun ch j => (ld_rx_0 _ ch j).trans (hf 0 b hb ch j))
      (fun p c => by show k2_pay4 (F := Ideal) (r9_0.idx (ix3 (0 : Fin 1) p c)) = 0; exact Cert.Hand.Level2.zero_apply _) hb1 hb2 p n
  · rw [out2_at1]
    exact Cert.Hand.Level2.bridge1 _ _ _ _ _ _ hidx b _ _ _ _ _ hoh (fun ch j => (ld_rx_1 _ ch j).trans (hf 1 b hb ch j))
      (fun p c => by show k2_pay4 (F := Ideal) (r9_1.idx (ix3 (0 : Fin 1) p c)) = 0; exact Cert.Hand.Level2.zero_apply _) hb1 hb2 p n

/-- Point `t`'s result block, read into the result array's index space, is its block of the reference's stage. -/
theorem flushed2_eq (hidx : ∀ j : S128.Idx, ((m ((c : Thread nD τ).loc main_arg5) : IVec S128 32) j).toNat < 1024) (t : Fin cfg2.N) :
    (dat2 (entry2 m) c).flushed 6 t = ((cfg2.win 6).blk t).view.read (Elt Ideal) (stage2 m c) := by
  obtain ⟨-, -, -, -, -, -, i0, i1, i2⟩ := idx2 t
  have ht : t.val < 8 := Nat.lt_of_lt_of_eq t.isLt N_2
  show (cfg2.win 6).cut (grid2.coords t) ((dat2 (entry2 m) c).after 6 t) = _
  rw [after2_6]
  funext x
  obtain ⟨u, p, n, rfl⟩ : ∃ (u : Fin 2) (p : Fin 128) (n : Fin 256), x = ix3 u p n := ⟨x 0, x 1, x 2, eq_ix3 x⟩
  refine (out2_pt m c hidx t p n u ⟨2 * t.val + u.val, by omega⟩ rfl).trans
    (read_unit_apply (Val := Elt Ideal) main_v32 (stage2 m c) _ _ _ (fin3 ?_ ?_ ?_)).symm
  · show 2 * t.val + u.val = win2_6.index t 0 * 2 + u.val; rw [i0]; omega
  · show p.val = win2_6.index t 1 * 128 + p.val; rw [i1]; omega
  · show n.val = win2_6.index t 2 * 256 + n.val; rw [i2]; omega

end Result

end Value2

open Value2 in
/-- Region 2's result array is the reference's level-2 stage: each point's block is its two batches' block of it, and the blocks cover the array. -/
theorem res2_eq (m : (ℓ : Loc nD τ sig) → Buf (Elt Ideal) ℓ) (c : Dev nD)
    (hidx : ∀ j : S128.Idx, ((m ((c : Thread nD τ).loc main_arg5) : IVec S128 32) j).toNat < 1024) :
    (res2 (F := Ideal) m c : FVec Ideal S16x128x256 .f32)
      = Cert.ReferenceIdeal.Read.val_main_v77 (F := Ideal) (m ((c : Thread nD τ).loc main_arg2)) (m ((c : Thread nD τ).loc main_arg5))
          (m ((c : Thread nD τ).loc main_arg14)) (m ((c : Thread nD τ).loc main_arg15)) (m ((c : Thread nD τ).loc main_arg16)) (m ((c : Thread nD τ).loc main_arg17)) :=
  (dat2 (entry2 m) c).arrAt_eq_of_cover 6 (stage2 m c) (fun t _ => flushed2_eq m c hidx t) fun i => by
    have ht : (i 0).val / 2 < cfg2.N := by
      have : (i 0).val < 16 := (i 0).isLt
      rw [show cfg2.N = 8 from N_2]; omega
    obtain ⟨-, -, -, -, -, -, i0, i1, i2⟩ := idx2 ⟨(i 0).val / 2, ht⟩
    exact ⟨_, flush2_6 _, mem_unit main_v32 _ i (batch_block 2 Nat.two_pos _ i i0 i1 i2)⟩

end Cert.KernelIdeal.Hand

end
-- ==== Proof.Claims.lean ====
import proofs.«428561_j53893249630457_3_alg».proof.Defs
import proofs.«428561_j53893249630457_3_alg».proof.Proof.Gen.Kernel
import proofs.«428561_j53893249630457_3_alg».proof.Proof.Gen.KernelIdeal
import proofs.«428561_j53893249630457_3_alg».proof.Proof.Gen.ReferenceIdeal
import proofs.«428561_j53893249630457_3_alg».proof.Proof.Gen.Pre_finite_inputs
import proofs.«428561_j53893249630457_3_alg».proof.Proof.Gen.ReferenceIdeal.Run
import proofs.«428561_j53893249630457_3_alg».proof.Proof.Gen.ReferenceIdeal.Read
import proofs.«428561_j53893249630457_3_alg».proof.Proof.IdxRange
import proofs.«428561_j53893249630457_3_alg».proof.Proof.K.Run
import proofs.«428561_j53893249630457_3_alg».proof.Proof.KI.Run
import proofs.«428561_j53893249630457_3_alg».proof.Proof.KI.Result
import proofs.«428561_j53893249630457_3_alg».proof.Proof.KI.Value0
import proofs.«428561_j53893249630457_3_alg».proof.Proof.KI.Value1
import proofs.«428561_j53893249630457_3_alg».proof.Proof.KI.Value2

noncomputable section

namespace Cert.Proof.Claims

open Idealize.ShloMosaic Idealize.ShloMosaic.TcCoe

-- Each kernel program's frame is its run with the result dropped: three regions among four host stretches.
theorem frame_k : Cert.frame_Kernel := fun m ρ _ =>
  (θ_run Cert.Kernel.defs _ _).mono (fun _ h c => (h c).2)
    (Cert.Kernel.Hand.run_of (F := Bits) m ρ)

theorem frame_ki : Cert.frame_KernelIdeal := fun m ρ _ =>
  (θ_run Cert.KernelIdeal.defs _ _).mono (fun _ h c => (h c).2)
    (Cert.KernelIdeal.Hand.run_of (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- With every position inside its map, each region's result is the reference's stage for that level, and both programs stack the three.
theorem algebraic : Cert.algebraic_KernelIdeal_ReferenceIdeal := by
  intro m ρ m' ρ' hpre hagree
  refine ⟨fun c => Cert.KernelIdeal.Gen.V7 m (Cert.KernelIdeal.Hand.outs m) c Cert.KernelIdeal.main_v36,
    Cert.KernelIdeal.Hand.run_of (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Hand.IdxRange.idx_ranges m hpre c
  obtain ⟨a0, a1, a2, a3, a4, a5, a6, a7, a8, a9, a10, a11, a12, a13, a14, a15, a16, a17⟩ := hagree c
  rw [Cert.ReferenceIdeal.Read.val_main_v81_eq, a0, a1, a2, a3, a4, a5, a6, a7, a8, a9, a10, a11, a12, a13, a14, a15, a16, a17]
  show _ = Cert.KernelIdeal.Gen.V7 m (Cert.KernelIdeal.Hand.outs m) c Cert.KernelIdeal.main_v36
  rw [Cert.KernelIdeal.Hand.result_eq, Cert.KernelIdeal.Hand.res0_eq m c h0, Cert.KernelIdeal.Hand.res1_eq m c h1,
    Cert.KernelIdeal.Hand.res2_eq m c h2]
  rfl

end Cert.Proof.Claims

end
-- ==== Proof.lean ====
/-
  Three patch heads. For each of three feature maps the rows at 128 given positions are taken, passed through a
  two-layer head, h = max(x·w1 + b1, 0), y = h·w2 + b2, and normalised, y / (√(Σ y²) + ε); the results are stacked.
  The reference takes a row by a gather; the kernel multiplies the map by a one-hot table of the positions and sums
  over all positions. With every position inside its map, which is the precondition, that sum has one non-zero term,
  the gathered row, and 0 · x = 0 for every extended real x, so no finiteness is needed.
-/
import proofs.«428561_j53893249630457_3_alg».proof.Defs
import proofs.«428561_j53893249630457_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
